-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x64x640 : Shape := ⟨3, ![512, 64, 640]⟩
abbrev S64 : Shape := ⟨1, ![64]⟩
abbrev S_ : Shape := ⟨0, ![]⟩
abbrev S64x1 : Shape := ⟨2, ![64, 1]⟩
abbrev S1x64 : Shape := ⟨2, ![1, 64]⟩
abbrev S64x64 : Shape := ⟨2, ![64, 64]⟩

class Facts : Prop where
  bcast_S_S512x64x640 : S_.BroadcastsInDim S512x64x640 (![] : Fin 0 → Fin S512x64x640.rank)
  reducesTo_S512x64x640_S_d0_1_2 : S512x64x640.ReducesTo [0, 1, 2] S_
  h_S_ : 0 < S_.numel
  bcast_S_S64 : S_.BroadcastsInDim S64 (![] : Fin 0 → Fin S64.rank)
  reducesTo_S64_S_d0 : S64.ReducesTo [0] S_
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  natLt_1_32 : 1 < 32
  reducesTo_S64x64_S64_d1 : S64x64.ReducesTo [1] S64

variable [Facts]

def fn_part1 {F : FTy → Type} [FloatOps F] (main_v10 : IVec S_ 1) (main_v17 : IVec S64 32) : IVec S_ 1 :=
  let main_c_4 : IVec S_ 32 := constantI S_ 32 1#32
  let main_v18 : IVec S64 32 := broadcastInDim S64 ![] bcast_S_S64 main_c_4
  let main_v19 : IVec S64 1 := cmpi .eq main_v17 main_v18
  let main_c_5 : IVec S_ 1 := constantI S_ 1 1#1
  let main_v20 : IVec S_ 1 := (fun x v => Host.reduce IntOp.andi x v reducesTo_S64_S_d0 h_S_) main_v19 main_c_5
  let main_v21 : IVec S_ 1 := andi main_v10 main_v20
  main_v21

def fn {F : FTy → Type} [FloatOps F] (main_arg0 : FVec F S512x64x640 .f32) (main_arg1 : IVec S64 32) : IVec S_ 1 :=
  let main_v0 : FVec F S512x64x640 .f32 := Host.absf main_arg0
  let main_cst : FVec F S_ .f32 := constant S_ .f32 0x7F800000#32
  let main_v1 : FVec F S512x64x640 .f32 := broadcastInDim S512x64x640 ![] bcast_S_S512x64x640 main_cst
  let main_v2 : IVec S512x64x640 1 := cmpf .olt main_v0 main_v1
  let main_c : IVec S_ 1 := constantI S_ 1 1#1
  let main_v3 : IVec S_ 1 := (fun x v => Host.reduce IntOp.andi x v reducesTo_S512x64x640_S_d0_1_2 h_S_) main_v2 main_c
  let main_c_0 : IVec S_ 32 := constantI S_ 32 0#32
  let main_v4 : IVec S64 32 := broadcastInDim S64 ![] bcast_S_S64 main_c_0
  let main_v5 : IVec S64 1 := cmpi .sge main_arg1 main_v4
  let main_c_1 : IVec S_ 32 := constantI S_ 32 110#32
  let main_v6 : IVec S64 32 := broadcastInDim S64 ![] bcast_S_S64 main_c_1
  let main_v7 : IVec S64 1 := cmpi .slt main_arg1 main_v6
  let main_v8 : IVec S64 1 := andi main_v5 main_v7
  let main_c_2 : IVec S_ 1 := constantI S_ 1 1#1
  let main_v9 : IVec S_ 1 := (fun x v => Host.reduce IntOp.andi x v reducesTo_S64_S_d0 h_S_) main_v8 main_c_2
  let main_v10 : IVec S_ 1 := andi main_v3 main_v9
  let main_v11 : IVec S64x1 32 := broadcastInDim S64x1 ![0] bcast_S64_S64x1_0 main_arg1
  let main_v12 : IVec S1x64 32 := broadcastInDim S1x64 ![1] bcast_S64_S1x64_1 main_arg1
  let main_v13 : IVec S64x64 32 := broadcastInDim S64x64 ![0, 1] bcast_S64x1_S64x64_0_1 main_v11
  let main_v14 : IVec S64x64 32 := broadcastInDim S64x64 ![0, 1] bcast_S1x64_S64x64_0_1 main_v12
  let main_v15 : IVec S64x64 1 := cmpi .eq main_v13 main_v14
  let main_v16 : IVec S64x64 32 := (extui 32 · natLt_1_32) main_v15
  let main_c_3 : IVec S_ 32 := constantI S_ 32 0#32
  let main_v17 : IVec S64 32 := (fun x v => Host.reduce IntOp.addi x v reducesTo_S64x64_S64_d1 h_S_) main_v16 main_c_3
  fn_part1 (F := F) main_v10 main_v17
-- ==== Kernel.lean ====
abbrev S512x64x640 : Shape := ⟨3, ![512, 64, 640]⟩
abbrev S64 : Shape := ⟨1, ![64]⟩
abbrev S512x110x640 : Shape := ⟨3, ![512, 110, 640]⟩
abbrev S32x64x640 : Shape := ⟨3, ![32, 64, 640]⟩
abbrev S32x110x640 : Shape := ⟨3, ![32, 110, 640]⟩
abbrev S1 : Shape := ⟨1, ![1]⟩
abbrev S_ : Shape := ⟨0, ![]⟩
abbrev S32x1x640 : Shape := ⟨3, ![32, 1, 640]⟩
abbrev S32x640 : Shape := ⟨2, ![32, 640]⟩
abbrev S512x10x11x640 : Shape := ⟨4, ![512, 10, 11, 640]⟩

abbrev nBuf : Space → Nat
  | .hbm => 3
  | .vmem => 4
  | .smem => 1
  | _ => 0

abbrev bufTy : (tb : Table) → Fin (tcTables nBuf tb) → BufTy
  | .hbm, ⟨0, _⟩ => ⟨S512x64x640, .f32⟩
  | .hbm, ⟨1, _⟩ => ⟨S512x110x640, .f32⟩
  | .hbm, ⟨2, _⟩ => ⟨S512x10x11x640, .f32⟩
  | .local _ .vmem, ⟨0, _⟩ => ⟨S32x64x640, .f32⟩
  | .local _ .vmem, ⟨1, _⟩ => ⟨S32x64x640, .f32⟩
  | .local _ .vmem, ⟨2, _⟩ => ⟨S32x110x640, .f32⟩
  | .local _ .vmem, ⟨3, _⟩ => ⟨S32x110x640, .f32⟩
  | .local _ .smem, ⟨0, _⟩ => ⟨S64, .i32⟩
  | _, _ => ⟨S512x64x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (v2 : BitVec 32) : Fin 3 → Nat :=
  let c0_i32_4 : BitVec 32 := 0#32
  let c0_i32_5 : BitVec 32 := 0#32
  ![0, v2.toNat, 0]

def k0_off2 (v9 : BitVec 32) : Fin 3 → Nat :=
  let c0_i32_9 : BitVec 32 := 0#32
  let c0_i32_10 : BitVec 32 := 0#32
  ![0, v9.toNat, 0]

def k0_off3 (v16 : BitVec 32) : Fin 3 → Nat :=
  let c0_i32_14 : BitVec 32 := 0#32
  let c0_i32_15 : BitVec 32 := 0#32
  ![0, v16.toNat, 0]

def k0_off4 (v23 : BitVec 32) : Fin 3 → Nat :=
  let c0_i32_19 : BitVec 32 := 0#32
  let c0_i32_20 : BitVec 32 := 0#32
  ![0, v23.toNat, 0]

def k0_off5 (v30 : BitVec 32) : Fin 3 → Nat :=
  let c0_i32_24 : BitVec 32 := 0#32
  let c0_i32_25 : BitVec 32 := 0#32
  ![0, v30.toNat, 0]

def k0_off6 (v37 : BitVec 32) : Fin 3 → Nat :=
  let c0_i32_29 : BitVec 32 := 0#32
  let c0_i32_30 : BitVec 32 := 0#32
  ![0, v37.toNat, 0]

def k0_off7 (v44 : BitVec 32) : Fin 3 → Nat :=
  let c0_i32_34 : BitVec 32 := 0#32
  let c0_i32_35 : BitVec 32 := 0#32
  ![0, v44.toNat, 0]

def k0_off8 (v51 : BitVec 32) : Fin 3 → Nat :=
  let c0_i32_39 : BitVec 32 := 0#32
  let c0_i32_40 : BitVec 32 := 0#32
  ![0, v51.toNat, 0]

def k0_off9 (v58 : BitVec 32) : Fin 3 → Nat :=
  let c0_i32_44 : BitVec 32 := 0#32
  let c0_i32_45 : BitVec 32 := 0#32
  ![0, v58.toNat, 0]

def k0_off10 (v65 : BitVec 32) : Fin 3 → Nat :=
  let c0_i32_49 : BitVec 32 := 0#32
  let c0_i32_50 : BitVec 32 := 0#32
  ![0, v65.toNat, 0]

def k0_off11 (v72 : BitVec 32) : Fin 3 → Nat :=
  let c0_i32_54 : BitVec 32 := 0#32
  let c0_i32_55 : BitVec 32 := 0#32
  ![0, v72.toNat, 0]

def k0_off12 (v79 : BitVec 32) : Fin 3 → Nat :=
  let c0_i32_59 : BitVec 32 := 0#32
  let c0_i32_60 : BitVec 32 := 0#32
  ![0, v79.toNat, 0]

def k0_off13 (v86 : BitVec 32) : Fin 3 → Nat :=
  let c0_i32_64 : BitVec 32 := 0#32
  let c0_i32_65 : BitVec 32 := 0#32
  ![0, v86.toNat, 0]

def k0_off14 (v93 : BitVec 32) : Fin 3 → Nat :=
  let c0_i32_69 : BitVec 32 := 0#32
  let c0_i32_70 : BitVec 32 := 0#32
  ![0, v93.toNat, 0]

def k0_off15 (v100 : BitVec 32) : Fin 3 → Nat :=
  let c0_i32_74 : BitVec 32 := 0#32
  let c0_i32_75 : BitVec 32 := 0#32
  ![0, v100.toNat, 0]

def k0_off16 (v107 : BitVec 32) : Fin 3 → Nat :=
  let c0_i32_79 : BitVec 32 := 0#32
  let c0_i32_80 : BitVec 32 := 0#32
  ![0, v107.toNat, 0]

def k0_off17 (v114 : BitVec 32) : Fin 3 → Nat :=
  let c0_i32_84 : BitVec 32 := 0#32
  let c0_i32_85 : BitVec 32 := 0#32
  ![0, v114.toNat, 0]

def k0_off18 (v121 : BitVec 32) : Fin 3 → Nat :=
  let c0_i32_89 : BitVec 32 := 0#32
  let c0_i32_90 : BitVec 32 := 0#32
  ![0, v121.toNat, 0]

def k0_off19 (v128 : BitVec 32) : Fin 3 → Nat :=
  let c0_i32_94 : BitVec 32 := 0#32
  let c0_i32_95 : BitVec 32 := 0#32
  ![0, v128.toNat, 0]

def k0_off20 (v135 : BitVec 32) : Fin 3 → Nat :=
  let c0_i32_99 : BitVec 32 := 0#32
  let c0_i32_100 : BitVec 32 := 0#32
  ![0, v135.toNat, 0]

def k0_off21 (v142 : BitVec 32) : Fin 3 → Nat :=
  let c0_i32_104 : BitVec 32 := 0#32
  let c0_i32_105 : BitVec 32 := 0#32
  ![0, v142.toNat, 0]

def k0_off22 (v149 : BitVec 32) : Fin 3 → Nat :=
  let c0_i32_109 : BitVec 32 := 0#32
  let c0_i32_110 : BitVec 32 := 0#32
  ![0, v149.toNat, 0]

def k0_off23 (v156 : BitVec 32) : Fin 3 → Nat :=
  let c0_i32_114 : BitVec 32 := 0#32
  let c0_i32_115 : BitVec 32 := 0#32
  ![0, v156.toNat, 0]

def k0_off24 (v163 : BitVec 32) : Fin 3 → Nat :=
  let c0_i32_119 : BitVec 32 := 0#32
  let c0_i32_120 : BitVec 32 := 0#32
  ![0, v163.toNat, 0]

def k0_off25 (v170 : BitVec 32) : Fin 3 → Nat :=
  let c0_i32_124 : BitVec 32 := 0#32
  let c0_i32_125 : BitVec 32 := 0#32
  ![0, v170.toNat, 0]

def k0_off26 (v177 : BitVec 32) : Fin 3 → Nat :=
  let c0_i32_129 : BitVec 32 := 0#32
  let c0_i32_130 : BitVec 32 := 0#32
  ![0, v177.toNat, 0]

def k0_off27 (v184 : BitVec 32) : Fin 3 → Nat :=
  let c0_i32_134 : BitVec 32 := 0#32
  let c0_i32_135 : BitVec 32 := 0#32
  ![0, v184.toNat, 0]

def k0_off28 (v191 : BitVec 32) : Fin 3 → Nat :=
  let c0_i32_139 : BitVec 32 := 0#32
  let c0_i32_140 : BitVec 32 := 0#32
  ![0, v191.toNat, 0]

def k0_off29 (v198 : BitVec 32) : Fin 3 → Nat :=
  let c0_i32_144 : BitVec 32 := 0#32
  let c0_i32_145 : BitVec 32 := 0#32
  ![0, v198.toNat, 0]

def k0_off30 (v205 : BitVec 32) : Fin 3 → Nat :=
  let c0_i32_149 : BitVec 32 := 0#32
  let c0_i32_150 : BitVec 32 := 0#32
  ![0, v205.toNat, 0]

def k0_off31 (v212 : BitVec 32) : Fin 3 → Nat :=
  let c0_i32_154 : BitVec 32 := 0#32
  let c0_i32_155 : BitVec 32 := 0#32
  ![0, v212.toNat, 0]

def k0_off32 (v219 : BitVec 32) : Fin 3 → Nat :=
  let c0_i32_159 : BitVec 32 := 0#32
  let c0_i32_160 : BitVec 32 := 0#32
  ![0, v219.toNat, 0]

def k0_off33 (v226 : BitVec 32) : Fin 3 → Nat :=
  let c0_i32_164 : BitVec 32 := 0#32
  let c0_i32_165 : BitVec 32 := 0#32
  ![0, v226.toNat, 0]

def k0_off34 (v233 : BitVec 32) : Fin 3 → Nat :=
  let c0_i32_169 : BitVec 32 := 0#32
  let c0_i32_170 : BitVec 32 := 0#32
  ![0, v233.toNat, 0]

def k0_off35 (v240 : BitVec 32) : Fin 3 → Nat :=
  let c0_i32_174 : BitVec 32 := 0#32
  let c0_i32_175 : BitVec 32 := 0#32
  ![0, v240.toNat, 0]

def k0_off36 (v247 : BitVec 32) : Fin 3 → Nat :=
  let c0_i32_179 : BitVec 32 := 0#32
  let c0_i32_180 : BitVec 32 := 0#32
  ![0, v247.toNat, 0]

def k0_off37 (v254 : BitVec 32) : Fin 3 → Nat :=
  let c0_i32_184 : BitVec 32 := 0#32
  let c0_i32_185 : BitVec 32 := 0#32
  ![0, v254.toNat, 0]

def k0_off38 (v261 : BitVec 32) : Fin 3 → Nat :=
  let c0_i32_189 : BitVec 32 := 0#32
  let c0_i32_190 : BitVec 32 := 0#32
  ![0, v261.toNat, 0]

def k0_off39 (v268 : BitVec 32) : Fin 3 → Nat :=
  let c0_i32_194 : BitVec 32 := 0#32
  let c0_i32_195 : BitVec 32 := 0#32
  ![0, v268.toNat, 0]

def k0_off40 (v275 : BitVec 32) : Fin 3 → Nat :=
  let c0_i32_199 : BitVec 32 := 0#32
  let c0_i32_200 : BitVec 32 := 0#32
  ![0, v275.toNat, 0]

def k0_off41 (v282 : BitVec 32) : Fin 3 → Nat :=
  let c0_i32_204 : BitVec 32 := 0#32
  let c0_i32_205 : BitVec 32 := 0#32
  ![0, v282.toNat, 0]

def k0_off42 (v289 : BitVec 32) : Fin 3 → Nat :=
  let c0_i32_209 : BitVec 32 := 0#32
  let c0_i32_210 : BitVec 32 := 0#32
  ![0, v289.toNat, 0]

def k0_off43 (v296 : BitVec 32) : Fin 3 → Nat :=
  let c0_i32_214 : BitVec 32 := 0#32
  let c0_i32_215 : BitVec 32 := 0#32
  ![0, v296.toNat, 0]

def k0_off44 (v303 : BitVec 32) : Fin 3 → Nat :=
  let c0_i32_219 : BitVec 32 := 0#32
  let c0_i32_220 : BitVec 32 := 0#32
  ![0, v303.toNat, 0]

def k0_off45 (v310 : BitVec 32) : Fin 3 → Nat :=
  let c0_i32_224 : BitVec 32 := 0#32
  let c0_i32_225 : BitVec 32 := 0#32
  ![0, v310.toNat, 0]

def k0_off46 (v317 : BitVec 32) : Fin 3 → Nat :=
  let c0_i32_229 : BitVec 32 := 0#32
  let c0_i32_230 : BitVec 32 := 0#32
  ![0, v317.toNat, 0]

def k0_off47 (v324 : BitVec 32) : Fin 3 → Nat :=
  let c0_i32_234 : BitVec 32 := 0#32
  let c0_i32_235 : BitVec 32 := 0#32
  ![0, v324.toNat, 0]

def k0_off48 (v331 : BitVec 32) : Fin 3 → Nat :=
  let c0_i32_239 : BitVec 32 := 0#32
  let c0_i32_240 : BitVec 32 := 0#32
  ![0, v331.toNat, 0]

def k0_off49 (v338 : BitVec 32) : Fin 3 → Nat :=
  let c0_i32_244 : BitVec 32 := 0#32
  let c0_i32_245 : BitVec 32 := 0#32
  ![0, v338.toNat, 0]

def k0_off50 (v345 : BitVec 32) : Fin 3 → Nat :=
  let c0_i32_249 : BitVec 32 := 0#32
  let c0_i32_250 : BitVec 32 := 0#32
  ![0, v345.toNat, 0]

def k0_off51 (v352 : BitVec 32) : Fin 3 → Nat :=
  let c0_i32_254 : BitVec 32 := 0#32
  let c0_i32_255 : BitVec 32 := 0#32
  ![0, v352.toNat, 0]

def k0_off52 (v359 : BitVec 32) : Fin 3 → Nat :=
  let c0_i32_259 : BitVec 32 := 0#32
  let c0_i32_260 : BitVec 32 := 0#32
  ![0, v359.toNat, 0]

def k0_off53 (v366 : BitVec 32) : Fin 3 → Nat :=
  let c0_i32_264 : BitVec 32 := 0#32
  let c0_i32_265 : BitVec 32 := 0#32
  ![0, v366.toNat, 0]

def k0_off54 (v373 : BitVec 32) : Fin 3 → Nat :=
  let c0_i32_269 : BitVec 32 := 0#32
  let c0_i32_270 : BitVec 32 := 0#32
  ![0, v373.toNat, 0]

def k0_off55 (v380 : BitVec 32) : Fin 3 → Nat :=
  let c0_i32_274 : BitVec 32 := 0#32
  let c0_i32_275 : BitVec 32 := 0#32
  ![0, v380.toNat, 0]

def k0_off56 (v387 : BitVec 32) : Fin 3 → Nat :=
  let c0_i32_279 : BitVec 32 := 0#32
  let c0_i32_280 : BitVec 32 := 0#32
  ![0, v387.toNat, 0]

def k0_off57 (v394 : BitVec 32) : Fin 3 → Nat :=
  let c0_i32_284 : BitVec 32 := 0#32
  let c0_i32_285 : BitVec 32 := 0#32
  ![0, v394.toNat, 0]

def k0_off58 (v401 : BitVec 32) : Fin 3 → Nat :=
  let c0_i32_289 : BitVec 32 := 0#32
  let c0_i32_290 : BitVec 32 := 0#32
  ![0, v401.toNat, 0]

def k0_off59 (v408 : BitVec 32) : Fin 3 → Nat :=
  let c0_i32_294 : BitVec 32 := 0#32
  let c0_i32_295 : BitVec 32 := 0#32
  ![0, v408.toNat, 0]

def k0_off60 (v415 : BitVec 32) : Fin 3 → Nat :=
  let c0_i32_299 : BitVec 32 := 0#32
  let c0_i32_300 : BitVec 32 := 0#32
  ![0, v415.toNat, 0]

def k0_off61 (v422 : BitVec 32) : Fin 3 → Nat :=
  let c0_i32_304 : BitVec 32 := 0#32
  let c0_i32_305 : BitVec 32 := 0#32
  ![0, v422.toNat, 0]

def k0_off62 (v429 : BitVec 32) : Fin 3 → Nat :=
  let c0_i32_309 : BitVec 32 := 0#32
  let c0_i32_310 : BitVec 32 := 0#32
  ![0, v429.toNat, 0]

def k0_off63 (v436 : BitVec 32) : Fin 3 → Nat :=
  let c0_i32_314 : BitVec 32 := 0#32
  let c0_i32_315 : BitVec 32 := 0#32
  ![0, v436.toNat, 0]

def k0_off64 (v443 : BitVec 32) : Fin 3 → Nat :=
  let c0_i32_319 : BitVec 32 := 0#32
  let c0_i32_320 : BitVec 32 := 0#32
  ![0, v443.toNat, 0]

def k0_chk64 (v443 : BitVec 32) : Prop :=
  (∀ a, (k0_off64 v443) a + S32x1x640.size a ≤ S32x110x640.size a)
instance k0_chk64.dec : ∀ (v443 : BitVec 32), Decidable (k0_chk64 v443) := fun v443 => decidable_of_iff' _ (Iff.of_eq (k0_chk64.eq_1 v443))
theorem k0_off64_inb : ∀ (v443 : BitVec 32) (k0_hw64 : k0_chk64 v443), ∀ a, (k0_off64 v443) a + S32x1x640.size a ≤ S32x110x640.size a := fun v443 k0_hw64 => k0_hw64

def k0_off65 (v2 : BitVec 32) : Fin 3 → Nat :=
  let c0_i32_325 : BitVec 32 := 0#32
  let c0_i32_326 : BitVec 32 := 0#32
  ![0, v2.toNat, 0]

def k0_chk1 (v2 : BitVec 32) : Prop :=
  (∀ a, (k0_off1 v2) a + S32x1x640.size a ≤ S32x110x640.size a) ∧
  (∀ a, (k0_off65 v2) a + S32x1x640.size a ≤ S32x110x640.size a)
instance k0_chk1.dec : ∀ (v2 : BitVec 32), Decidable (k0_chk1 v2) := fun v2 => decidable_of_iff' _ (Iff.of_eq (k0_chk1.eq_1 v2))
theorem k0_off1_inb : ∀ (v2 : BitVec 32) (k0_hw1 : k0_chk1 v2), ∀ a, (k0_off1 v2) a + S32x1x640.size a ≤ S32x110x640.size a := fun v2 k0_hw1 => k0_hw1.1
theorem k0_off65_inb : ∀ (v2 : BitVec 32) (k0_hw1 : k0_chk1 v2), ∀ a, (k0_off65 v2) a + S32x1x640.size a ≤ S32x110x640.size a := fun v2 k0_hw1 => k0_hw1.2

def k0_off66 (v9 : BitVec 32) : Fin 3 → Nat :=
  let c0_i32_331 : BitVec 32 := 0#32
  let c0_i32_332 : BitVec 32 := 0#32
  ![0, v9.toNat, 0]

def k0_chk2 (v9 : BitVec 32) : Prop :=
  (∀ a, (k0_off2 v9) a + S32x1x640.size a ≤ S32x110x640.size a) ∧
  (∀ a, (k0_off66 v9) a + S32x1x640.size a ≤ S32x110x640.size a)
instance k0_chk2.dec : ∀ (v9 : BitVec 32), Decidable (k0_chk2 v9) := fun v9 => decidable_of_iff' _ (Iff.of_eq (k0_chk2.eq_1 v9))
theorem k0_off2_inb : ∀ (v9 : BitVec 32) (k0_hw2 : k0_chk2 v9), ∀ a, (k0_off2 v9) a + S32x1x640.size a ≤ S32x110x640.size a := fun v9 k0_hw2 => k0_hw2.1
theorem k0_off66_inb : ∀ (v9 : BitVec 32) (k0_hw2 : k0_chk2 v9), ∀ a, (k0_off66 v9) a + S32x1x640.size a ≤ S32x110x640.size a := fun v9 k0_hw2 => k0_hw2.2

def k0_off67 (v16 : BitVec 32) : Fin 3 → Nat :=
  let c0_i32_337 : BitVec 32 := 0#32
  let c0_i32_338 : BitVec 32 := 0#32
  ![0, v16.toNat, 0]

def k0_chk3 (v16 : BitVec 32) : Prop :=
  (∀ a, (k0_off3 v16) a + S32x1x640.size a ≤ S32x110x640.size a) ∧
  (∀ a, (k0_off67 v16) a + S32x1x640.size a ≤ S32x110x640.size a)
instance k0_chk3.dec : ∀ (v16 : BitVec 32), Decidable (k0_chk3 v16) := fun v16 => decidable_of_iff' _ (Iff.of_eq (k0_chk3.eq_1 v16))
theorem k0_off3_inb : ∀ (v16 : BitVec 32) (k0_hw3 : k0_chk3 v16), ∀ a, (k0_off3 v16) a + S32x1x640.size a ≤ S32x110x640.size a := fun v16 k0_hw3 => k0_hw3.1
theorem k0_off67_inb : ∀ (v16 : BitVec 32) (k0_hw3 : k0_chk3 v16), ∀ a, (k0_off67 v16) a + S32x1x640.size a ≤ S32x110x640.size a := fun v16 k0_hw3 => k0_hw3.2

def k0_off68 (v23 : BitVec 32) : Fin 3 → Nat :=
  let c0_i32_343 : BitVec 32 := 0#32
  let c0_i32_344 : BitVec 32 := 0#32
  ![0, v23.toNat, 0]

def k0_chk4 (v23 : BitVec 32) : Prop :=
  (∀ a, (k0_off4 v23) a + S32x1x640.size a ≤ S32x110x640.size a) ∧
  (∀ a, (k0_off68 v23) a + S32x1x640.size a ≤ S32x110x640.size a)
instance k0_chk4.dec : ∀ (v23 : BitVec 32), Decidable (k0_chk4 v23) := fun v23 => decidable_of_iff' _ (Iff.of_eq (k0_chk4.eq_1 v23))
theorem k0_off4_inb : ∀ (v23 : BitVec 32) (k0_hw4 : k0_chk4 v23), ∀ a, (k0_off4 v23) a + S32x1x640.size a ≤ S32x110x640.size a := fun v23 k0_hw4 => k0_hw4.1
theorem k0_off68_inb : ∀ (v23 : BitVec 32) (k0_hw4 : k0_chk4 v23), ∀ a, (k0_off68 v23) a + S32x1x640.size a ≤ S32x110x640.size a := fun v23 k0_hw4 => k0_hw4.2

def k0_off69 (v30 : BitVec 32) : Fin 3 → Nat :=
  let c0_i32_349 : BitVec 32 := 0#32
  let c0_i32_350 : BitVec 32 := 0#32
  ![0, v30.toNat, 0]

def k0_chk5 (v30 : BitVec 32) : Prop :=
  (∀ a, (k0_off5 v30) a + S32x1x640.size a ≤ S32x110x640.size a) ∧
  (∀ a, (k0_off69 v30) a + S32x1x640.size a ≤ S32x110x640.size a)
instance k0_chk5.dec : ∀ (v30 : BitVec 32), Decidable (k0_chk5 v30) := fun v30 => decidable_of_iff' _ (Iff.of_eq (k0_chk5.eq_1 v30))
theorem k0_off5_inb : ∀ (v30 : BitVec 32) (k0_hw5 : k0_chk5 v30), ∀ a, (k0_off5 v30) a + S32x1x640.size a ≤ S32x110x640.size a := fun v30 k0_hw5 => k0_hw5.1
theorem k0_off69_inb : ∀ (v30 : BitVec 32) (k0_hw5 : k0_chk5 v30), ∀ a, (k0_off69 v30) a + S32x1x640.size a ≤ S32x110x640.size a := fun v30 k0_hw5 => k0_hw5.2

def k0_off70 (v37 : BitVec 32) : Fin 3 → Nat :=
  let c0_i32_355 : BitVec 32 := 0#32
  let c0_i32_356 : BitVec 32 := 0#32
  ![0, v37.toNat, 0]

def k0_chk6 (v37 : BitVec 32) : Prop :=
  (∀ a, (k0_off6 v37) a + S32x1x640.size a ≤ S32x110x640.size a) ∧
  (∀ a, (k0_off70 v37) a + S32x1x640.size a ≤ S32x110x640.size a)
instance k0_chk6.dec : ∀ (v37 : BitVec 32), Decidable (k0_chk6 v37) := fun v37 => decidable_of_iff' _ (Iff.of_eq (k0_chk6.eq_1 v37))
theorem k0_off6_inb : ∀ (v37 : BitVec 32) (k0_hw6 : k0_chk6 v37), ∀ a, (k0_off6 v37) a + S32x1x640.size a ≤ S32x110x640.size a := fun v37 k0_hw6 => k0_hw6.1
theorem k0_off70_inb : ∀ (v37 : BitVec 32) (k0_hw6 : k0_chk6 v37), ∀ a, (k0_off70 v37) a + S32x1x640.size a ≤ S32x110x640.size a := fun v37 k0_hw6 => k0_hw6.2

def k0_off71 (v44 : BitVec 32) : Fin 3 → Nat :=
  let c0_i32_361 : BitVec 32 := 0#32
  let c0_i32_362 : BitVec 32 := 0#32
  ![0, v44.toNat, 0]

def k0_chk7 (v44 : BitVec 32) : Prop :=
  (∀ a, (k0_off7 v44) a + S32x1x640.size a ≤ S32x110x640.size a) ∧
  (∀ a, (k0_off71 v44) a + S32x1x640.size a ≤ S32x110x640.size a)
instance k0_chk7.dec : ∀ (v44 : BitVec 32), Decidable (k0_chk7 v44) := fun v44 => decidable_of_iff' _ (Iff.of_eq (k0_chk7.eq_1 v44))
theorem k0_off7_inb : ∀ (v44 : BitVec 32) (k0_hw7 : k0_chk7 v44), ∀ a, (k0_off7 v44) a + S32x1x640.size a ≤ S32x110x640.size a := fun v44 k0_hw7 => k0_hw7.1
theorem k0_off71_inb : ∀ (v44 : BitVec 32) (k0_hw7 : k0_chk7 v44), ∀ a, (k0_off71 v44) a + S32x1x640.size a ≤ S32x110x640.size a := fun v44 k0_hw7 => k0_hw7.2

def k0_off72 (v51 : BitVec 32) : Fin 3 → Nat :=
  let c0_i32_367 : BitVec 32 := 0#32
  let c0_i32_368 : BitVec 32 := 0#32
  ![0, v51.toNat, 0]

def k0_chk8 (v51 : BitVec 32) : Prop :=
  (∀ a, (k0_off8 v51) a + S32x1x640.size a ≤ S32x110x640.size a) ∧
  (∀ a, (k0_off72 v51) a + S32x1x640.size a ≤ S32x110x640.size a)
instance k0_chk8.dec : ∀ (v51 : BitVec 32), Decidable (k0_chk8 v51) := fun v51 => decidable_of_iff' _ (Iff.of_eq (k0_chk8.eq_1 v51))
theorem k0_off8_inb : ∀ (v51 : BitVec 32) (k0_hw8 : k0_chk8 v51), ∀ a, (k0_off8 v51) a + S32x1x640.size a ≤ S32x110x640.size a := fun v51 k0_hw8 => k0_hw8.1
theorem k0_off72_inb : ∀ (v51 : BitVec 32) (k0_hw8 : k0_chk8 v51), ∀ a, (k0_off72 v51) a + S32x1x640.size a ≤ S32x110x640.size a := fun v51 k0_hw8 => k0_hw8.2

def k0_off73 (v58 : BitVec 32) : Fin 3 → Nat :=
  let c0_i32_373 : BitVec 32 := 0#32
  let c0_i32_374 : BitVec 32 := 0#32
  ![0, v58.toNat, 0]

def k0_chk9 (v58 : BitVec 32) : Prop :=
  (∀ a, (k0_off9 v58) a + S32x1x640.size a ≤ S32x110x640.size a) ∧
  (∀ a, (k0_off73 v58) a + S32x1x640.size a ≤ S32x110x640.size a)
instance k0_chk9.dec : ∀ (v58 : BitVec 32), Decidable (k0_chk9 v58) := fun v58 => decidable_of_iff' _ (Iff.of_eq (k0_chk9.eq_1 v58))
theorem k0_off9_inb : ∀ (v58 : BitVec 32) (k0_hw9 : k0_chk9 v58), ∀ a, (k0_off9 v58) a + S32x1x640.size a ≤ S32x110x640.size a := fun v58 k0_hw9 => k0_hw9.1
theorem k0_off73_inb : ∀ (v58 : BitVec 32) (k0_hw9 : k0_chk9 v58), ∀ a, (k0_off73 v58) a + S32x1x640.size a ≤ S32x110x640.size a := fun v58 k0_hw9 => k0_hw9.2

def k0_off74 (v65 : BitVec 32) : Fin 3 → Nat :=
  let c0_i32_379 : BitVec 32 := 0#32
  let c0_i32_380 : BitVec 32 := 0#32
  ![0, v65.toNat, 0]

def k0_chk10 (v65 : BitVec 32) : Prop :=
  (∀ a, (k0_off10 v65) a + S32x1x640.size a ≤ S32x110x640.size a) ∧
  (∀ a, (k0_off74 v65) a + S32x1x640.size a ≤ S32x110x640.size a)
instance k0_chk10.dec : ∀ (v65 : BitVec 32), Decidable (k0_chk10 v65) := fun v65 => decidable_of_iff' _ (Iff.of_eq (k0_chk10.eq_1 v65))
theorem k0_off10_inb : ∀ (v65 : BitVec 32) (k0_hw10 : k0_chk10 v65), ∀ a, (k0_off10 v65) a + S32x1x640.size a ≤ S32x110x640.size a := fun v65 k0_hw10 => k0_hw10.1
theorem k0_off74_inb : ∀ (v65 : BitVec 32) (k0_hw10 : k0_chk10 v65), ∀ a, (k0_off74 v65) a + S32x1x640.size a ≤ S32x110x640.size a := fun v65 k0_hw10 => k0_hw10.2

def k0_off75 (v72 : BitVec 32) : Fin 3 → Nat :=
  let c0_i32_385 : BitVec 32 := 0#32
  let c0_i32_386 : BitVec 32 := 0#32
  ![0, v72.toNat, 0]

def k0_chk11 (v72 : BitVec 32) : Prop :=
  (∀ a, (k0_off11 v72) a + S32x1x640.size a ≤ S32x110x640.size a) ∧
  (∀ a, (k0_off75 v72) a + S32x1x640.size a ≤ S32x110x640.size a)
instance k0_chk11.dec : ∀ (v72 : BitVec 32), Decidable (k0_chk11 v72) := fun v72 => decidable_of_iff' _ (Iff.of_eq (k0_chk11.eq_1 v72))
theorem k0_off11_inb : ∀ (v72 : BitVec 32) (k0_hw11 : k0_chk11 v72), ∀ a, (k0_off11 v72) a + S32x1x640.size a ≤ S32x110x640.size a := fun v72 k0_hw11 => k0_hw11.1
theorem k0_off75_inb : ∀ (v72 : BitVec 32) (k0_hw11 : k0_chk11 v72), ∀ a, (k0_off75 v72) a + S32x1x640.size a ≤ S32x110x640.size a := fun v72 k0_hw11 => k0_hw11.2

def k0_off76 (v79 : BitVec 32) : Fin 3 → Nat :=
  let c0_i32_391 : BitVec 32 := 0#32
  let c0_i32_392 : BitVec 32 := 0#32
  ![0, v79.toNat, 0]

def k0_chk12 (v79 : BitVec 32) : Prop :=
  (∀ a, (k0_off12 v79) a + S32x1x640.size a ≤ S32x110x640.size a) ∧
  (∀ a, (k0_off76 v79) a + S32x1x640.size a ≤ S32x110x640.size a)
instance k0_chk12.dec : ∀ (v79 : BitVec 32), Decidable (k0_chk12 v79) := fun v79 => decidable_of_iff' _ (Iff.of_eq (k0_chk12.eq_1 v79))
theorem k0_off12_inb : ∀ (v79 : BitVec 32) (k0_hw12 : k0_chk12 v79), ∀ a, (k0_off12 v79) a + S32x1x640.size a ≤ S32x110x640.size a := fun v79 k0_hw12 => k0_hw12.1
theorem k0_off76_inb : ∀ (v79 : BitVec 32) (k0_hw12 : k0_chk12 v79), ∀ a, (k0_off76 v79) a + S32x1x640.size a ≤ S32x110x640.size a := fun v79 k0_hw12 => k0_hw12.2

def k0_off77 (v86 : BitVec 32) : Fin 3 → Nat :=
  let c0_i32_397 : BitVec 32 := 0#32
  let c0_i32_398 : BitVec 32 := 0#32
  ![0, v86.toNat, 0]

def k0_chk13 (v86 : BitVec 32) : Prop :=
  (∀ a, (k0_off13 v86) a + S32x1x640.size a ≤ S32x110x640.size a) ∧
  (∀ a, (k0_off77 v86) a + S32x1x640.size a ≤ S32x110x640.size a)
instance k0_chk13.dec : ∀ (v86 : BitVec 32), Decidable (k0_chk13 v86) := fun v86 => decidable_of_iff' _ (Iff.of_eq (k0_chk13.eq_1 v86))
theorem k0_off13_inb : ∀ (v86 : BitVec 32) (k0_hw13 : k0_chk13 v86), ∀ a, (k0_off13 v86) a + S32x1x640.size a ≤ S32x110x640.size a := fun v86 k0_hw13 => k0_hw13.1
theorem k0_off77_inb : ∀ (v86 : BitVec 32) (k0_hw13 : k0_chk13 v86), ∀ a, (k0_off77 v86) a + S32x1x640.size a ≤ S32x110x640.size a := fun v86 k0_hw13 => k0_hw13.2

def k0_off78 (v93 : BitVec 32) : Fin 3 → Nat :=
  let c0_i32_403 : BitVec 32 := 0#32
  let c0_i32_404 : BitVec 32 := 0#32
  ![0, v93.toNat, 0]

def k0_chk14 (v93 : BitVec 32) : Prop :=
  (∀ a, (k0_off14 v93) a + S32x1x640.size a ≤ S32x110x640.size a) ∧
  (∀ a, (k0_off78 v93) a + S32x1x640.size a ≤ S32x110x640.size a)
instance k0_chk14.dec : ∀ (v93 : BitVec 32), Decidable (k0_chk14 v93) := fun v93 => decidable_of_iff' _ (Iff.of_eq (k0_chk14.eq_1 v93))
theorem k0_off14_inb : ∀ (v93 : BitVec 32) (k0_hw14 : k0_chk14 v93), ∀ a, (k0_off14 v93) a + S32x1x640.size a ≤ S32x110x640.size a := fun v93 k0_hw14 => k0_hw14.1
theorem k0_off78_inb : ∀ (v93 : BitVec 32) (k0_hw14 : k0_chk14 v93), ∀ a, (k0_off78 v93) a + S32x1x640.size a ≤ S32x110x640.size a := fun v93 k0_hw14 => k0_hw14.2

def k0_off79 (v100 : BitVec 32) : Fin 3 → Nat :=
  let c0_i32_409 : BitVec 32 := 0#32
  let c0_i32_410 : BitVec 32 := 0#32
  ![0, v100.toNat, 0]

def k0_chk15 (v100 : BitVec 32) : Prop :=
  (∀ a, (k0_off15 v100) a + S32x1x640.size a ≤ S32x110x640.size a) ∧
  (∀ a, (k0_off79 v100) a + S32x1x640.size a ≤ S32x110x640.size a)
instance k0_chk15.dec : ∀ (v100 : BitVec 32), Decidable (k0_chk15 v100) := fun v100 => decidable_of_iff' _ (Iff.of_eq (k0_chk15.eq_1 v100))
theorem k0_off15_inb : ∀ (v100 : BitVec 32) (k0_hw15 : k0_chk15 v100), ∀ a, (k0_off15 v100) a + S32x1x640.size a ≤ S32x110x640.size a := fun v100 k0_hw15 => k0_hw15.1
theorem k0_off79_inb : ∀ (v100 : BitVec 32) (k0_hw15 : k0_chk15 v100), ∀ a, (k0_off79 v100) a + S32x1x640.size a ≤ S32x110x640.size a := fun v100 k0_hw15 => k0_hw15.2

def k0_off80 (v107 : BitVec 32) : Fin 3 → Nat :=
  let c0_i32_415 : BitVec 32 := 0#32
  let c0_i32_416 : BitVec 32 := 0#32
  ![0, v107.toNat, 0]

def k0_chk16 (v107 : BitVec 32) : Prop :=
  (∀ a, (k0_off16 v107) a + S32x1x640.size a ≤ S32x110x640.size a) ∧
  (∀ a, (k0_off80 v107) a + S32x1x640.size a ≤ S32x110x640.size a)
instance k0_chk16.dec : ∀ (v107 : BitVec 32), Decidable (k0_chk16 v107) := fun v107 => decidable_of_iff' _ (Iff.of_eq (k0_chk16.eq_1 v107))
theorem k0_off16_inb : ∀ (v107 : BitVec 32) (k0_hw16 : k0_chk16 v107), ∀ a, (k0_off16 v107) a + S32x1x640.size a ≤ S32x110x640.size a := fun v107 k0_hw16 => k0_hw16.1
theorem k0_off80_inb : ∀ (v107 : BitVec 32) (k0_hw16 : k0_chk16 v107), ∀ a, (k0_off80 v107) a + S32x1x640.size a ≤ S32x110x640.size a := fun v107 k0_hw16 => k0_hw16.2

def k0_off81 (v114 : BitVec 32) : Fin 3 → Nat :=
  let c0_i32_421 : BitVec 32 := 0#32
  let c0_i32_422 : BitVec 32 := 0#32
  ![0, v114.toNat, 0]

def k0_chk17 (v114 : BitVec 32) : Prop :=
  (∀ a, (k0_off17 v114) a + S32x1x640.size a ≤ S32x110x640.size a) ∧
  (∀ a, (k0_off81 v114) a + S32x1x640.size a ≤ S32x110x640.size a)
instance k0_chk17.dec : ∀ (v114 : BitVec 32), Decidable (k0_chk17 v114) := fun v114 => decidable_of_iff' _ (Iff.of_eq (k0_chk17.eq_1 v114))
theorem k0_off17_inb : ∀ (v114 : BitVec 32) (k0_hw17 : k0_chk17 v114), ∀ a, (k0_off17 v114) a + S32x1x640.size a ≤ S32x110x640.size a := fun v114 k0_hw17 => k0_hw17.1
theorem k0_off81_inb : ∀ (v114 : BitVec 32) (k0_hw17 : k0_chk17 v114), ∀ a, (k0_off81 v114) a + S32x1x640.size a ≤ S32x110x640.size a := fun v114 k0_hw17 => k0_hw17.2

def k0_off82 (v121 : BitVec 32) : Fin 3 → Nat :=
  let c0_i32_427 : BitVec 32 := 0#32
  let c0_i32_428 : BitVec 32 := 0#32
  ![0, v121.toNat, 0]

def k0_chk18 (v121 : BitVec 32) : Prop :=
  (∀ a, (k0_off18 v121) a + S32x1x640.size a ≤ S32x110x640.size a) ∧
  (∀ a, (k0_off82 v121) a + S32x1x640.size a ≤ S32x110x640.size a)
instance k0_chk18.dec : ∀ (v121 : BitVec 32), Decidable (k0_chk18 v121) := fun v121 => decidable_of_iff' _ (Iff.of_eq (k0_chk18.eq_1 v121))
theorem k0_off18_inb : ∀ (v121 : BitVec 32) (k0_hw18 : k0_chk18 v121), ∀ a, (k0_off18 v121) a + S32x1x640.size a ≤ S32x110x640.size a := fun v121 k0_hw18 => k0_hw18.1
theorem k0_off82_inb : ∀ (v121 : BitVec 32) (k0_hw18 : k0_chk18 v121), ∀ a, (k0_off82 v121) a + S32x1x640.size a ≤ S32x110x640.size a := fun v121 k0_hw18 => k0_hw18.2

def k0_off83 (v128 : BitVec 32) : Fin 3 → Nat :=
  let c0_i32_433 : BitVec 32 := 0#32
  let c0_i32_434 : BitVec 32 := 0#32
  ![0, v128.toNat, 0]

def k0_chk19 (v128 : BitVec 32) : Prop :=
  (∀ a, (k0_off19 v128) a + S32x1x640.size a ≤ S32x110x640.size a) ∧
  (∀ a, (k0_off83 v128) a + S32x1x640.size a ≤ S32x110x640.size a)
instance k0_chk19.dec : ∀ (v128 : BitVec 32), Decidable (k0_chk19 v128) := fun v128 => decidable_of_iff' _ (Iff.of_eq (k0_chk19.eq_1 v128))
theorem k0_off19_inb : ∀ (v128 : BitVec 32) (k0_hw19 : k0_chk19 v128), ∀ a, (k0_off19 v128) a + S32x1x640.size a ≤ S32x110x640.size a := fun v128 k0_hw19 => k0_hw19.1
theorem k0_off83_inb : ∀ (v128 : BitVec 32) (k0_hw19 : k0_chk19 v128), ∀ a, (k0_off83 v128) a + S32x1x640.size a ≤ S32x110x640.size a := fun v128 k0_hw19 => k0_hw19.2

def k0_off84 (v135 : BitVec 32) : Fin 3 → Nat :=
  let c0_i32_439 : BitVec 32 := 0#32
  let c0_i32_440 : BitVec 32 := 0#32
  ![0, v135.toNat, 0]

def k0_chk20 (v135 : BitVec 32) : Prop :=
  (∀ a, (k0_off20 v135) a + S32x1x640.size a ≤ S32x110x640.size a) ∧
  (∀ a, (k0_off84 v135) a + S32x1x640.size a ≤ S32x110x640.size a)
instance k0_chk20.dec : ∀ (v135 : BitVec 32), Decidable (k0_chk20 v135) := fun v135 => decidable_of_iff' _ (Iff.of_eq (k0_chk20.eq_1 v135))
theorem k0_off20_inb : ∀ (v135 : BitVec 32) (k0_hw20 : k0_chk20 v135), ∀ a, (k0_off20 v135) a + S32x1x640.size a ≤ S32x110x640.size a := fun v135 k0_hw20 => k0_hw20.1
theorem k0_off84_inb : ∀ (v135 : BitVec 32) (k0_hw20 : k0_chk20 v135), ∀ a, (k0_off84 v135) a + S32x1x640.size a ≤ S32x110x640.size a := fun v135 k0_hw20 => k0_hw20.2

def k0_off85 (v142 : BitVec 32) : Fin 3 → Nat :=
  let c0_i32_445 : BitVec 32 := 0#32
  let c0_i32_446 : BitVec 32 := 0#32
  ![0, v142.toNat, 0]

def k0_chk21 (v142 : BitVec 32) : Prop :=
  (∀ a, (k0_off21 v142) a + S32x1x640.size a ≤ S32x110x640.size a) ∧
  (∀ a, (k0_off85 v142) a + S32x1x640.size a ≤ S32x110x640.size a)
instance k0_chk21.dec : ∀ (v142 : BitVec 32), Decidable (k0_chk21 v142) := fun v142 => decidable_of_iff' _ (Iff.of_eq (k0_chk21.eq_1 v142))
theorem k0_off21_inb : ∀ (v142 : BitVec 32) (k0_hw21 : k0_chk21 v142), ∀ a, (k0_off21 v142) a + S32x1x640.size a ≤ S32x110x640.size a := fun v142 k0_hw21 => k0_hw21.1
theorem k0_off85_inb : ∀ (v142 : BitVec 32) (k0_hw21 : k0_chk21 v142), ∀ a, (k0_off85 v142) a + S32x1x640.size a ≤ S32x110x640.size a := fun v142 k0_hw21 => k0_hw21.2

def k0_off86 (v149 : BitVec 32) : Fin 3 → Nat :=
  let c0_i32_451 : BitVec 32 := 0#32
  let c0_i32_452 : BitVec 32 := 0#32
  ![0, v149.toNat, 0]

def k0_chk22 (v149 : BitVec 32) : Prop :=
  (∀ a, (k0_off22 v149) a + S32x1x640.size a ≤ S32x110x640.size a) ∧
  (∀ a, (k0_off86 v149) a + S32x1x640.size a ≤ S32x110x640.size a)
instance k0_chk22.dec : ∀ (v149 : BitVec 32), Decidable (k0_chk22 v149) := fun v149 => decidable_of_iff' _ (Iff.of_eq (k0_chk22.eq_1 v149))
theorem k0_off22_inb : ∀ (v149 : BitVec 32) (k0_hw22 : k0_chk22 v149), ∀ a, (k0_off22 v149) a + S32x1x640.size a ≤ S32x110x640.size a := fun v149 k0_hw22 => k0_hw22.1
theorem k0_off86_inb : ∀ (v149 : BitVec 32) (k0_hw22 : k0_chk22 v149), ∀ a, (k0_off86 v149) a + S32x1x640.size a ≤ S32x110x640.size a := fun v149 k0_hw22 => k0_hw22.2

def k0_off87 (v156 : BitVec 32) : Fin 3 → Nat :=
  let c0_i32_457 : BitVec 32 := 0#32
  let c0_i32_458 : BitVec 32 := 0#32
  ![0, v156.toNat, 0]

def k0_chk23 (v156 : BitVec 32) : Prop :=
  (∀ a, (k0_off23 v156) a + S32x1x640.size a ≤ S32x110x640.size a) ∧
  (∀ a, (k0_off87 v156) a + S32x1x640.size a ≤ S32x110x640.size a)
instance k0_chk23.dec : ∀ (v156 : BitVec 32), Decidable (k0_chk23 v156) := fun v156 => decidable_of_iff' _ (Iff.of_eq (k0_chk23.eq_1 v156))
theorem k0_off23_inb : ∀ (v156 : BitVec 32) (k0_hw23 : k0_chk23 v156), ∀ a, (k0_off23 v156) a + S32x1x640.size a ≤ S32x110x640.size a := fun v156 k0_hw23 => k0_hw23.1
theorem k0_off87_inb : ∀ (v156 : BitVec 32) (k0_hw23 : k0_chk23 v156), ∀ a, (k0_off87 v156) a + S32x1x640.size a ≤ S32x110x640.size a := fun v156 k0_hw23 => k0_hw23.2

def k0_off88 (v163 : BitVec 32) : Fin 3 → Nat :=
  let c0_i32_463 : BitVec 32 := 0#32
  let c0_i32_464 : BitVec 32 := 0#32
  ![0, v163.toNat, 0]

def k0_chk24 (v163 : BitVec 32) : Prop :=
  (∀ a, (k0_off24 v163) a + S32x1x640.size a ≤ S32x110x640.size a) ∧
  (∀ a, (k0_off88 v163) a + S32x1x640.size a ≤ S32x110x640.size a)
instance k0_chk24.dec : ∀ (v163 : BitVec 32), Decidable (k0_chk24 v163) := fun v163 => decidable_of_iff' _ (Iff.of_eq (k0_chk24.eq_1 v163))
theorem k0_off24_inb : ∀ (v163 : BitVec 32) (k0_hw24 : k0_chk24 v163), ∀ a, (k0_off24 v163) a + S32x1x640.size a ≤ S32x110x640.size a := fun v163 k0_hw24 => k0_hw24.1
theorem k0_off88_inb : ∀ (v163 : BitVec 32) (k0_hw24 : k0_chk24 v163), ∀ a, (k0_off88 v163) a + S32x1x640.size a ≤ S32x110x640.size a := fun v163 k0_hw24 => k0_hw24.2

def k0_off89 (v170 : BitVec 32) : Fin 3 → Nat :=
  let c0_i32_469 : BitVec 32 := 0#32
  let c0_i32_470 : BitVec 32 := 0#32
  ![0, v170.toNat, 0]

def k0_chk25 (v170 : BitVec 32) : Prop :=
  (∀ a, (k0_off25 v170) a + S32x1x640.size a ≤ S32x110x640.size a) ∧
  (∀ a, (k0_off89 v170) a + S32x1x640.size a ≤ S32x110x640.size a)
instance k0_chk25.dec : ∀ (v170 : BitVec 32), Decidable (k0_chk25 v170) := fun v170 => decidable_of_iff' _ (Iff.of_eq (k0_chk25.eq_1 v170))
theorem k0_off25_inb : ∀ (v170 : BitVec 32) (k0_hw25 : k0_chk25 v170), ∀ a, (k0_off25 v170) a + S32x1x640.size a ≤ S32x110x640.size a := fun v170 k0_hw25 => k0_hw25.1
theorem k0_off89_inb : ∀ (v170 : BitVec 32) (k0_hw25 : k0_chk25 v170), ∀ a, (k0_off89 v170) a + S32x1x640.size a ≤ S32x110x640.size a := fun v170 k0_hw25 => k0_hw25.2

def k0_off90 (v177 : BitVec 32) : Fin 3 → Nat :=
  let c0_i32_475 : BitVec 32 := 0#32
  let c0_i32_476 : BitVec 32 := 0#32
  ![0, v177.toNat, 0]

def k0_chk26 (v177 : BitVec 32) : Prop :=
  (∀ a, (k0_off26 v177) a + S32x1x640.size a ≤ S32x110x640.size a) ∧
  (∀ a, (k0_off90 v177) a + S32x1x640.size a ≤ S32x110x640.size a)
instance k0_chk26.dec : ∀ (v177 : BitVec 32), Decidable (k0_chk26 v177) := fun v177 => decidable_of_iff' _ (Iff.of_eq (k0_chk26.eq_1 v177))
theorem k0_off26_inb : ∀ (v177 : BitVec 32) (k0_hw26 : k0_chk26 v177), ∀ a, (k0_off26 v177) a + S32x1x640.size a ≤ S32x110x640.size a := fun v177 k0_hw26 => k0_hw26.1
theorem k0_off90_inb : ∀ (v177 : BitVec 32) (k0_hw26 : k0_chk26 v177), ∀ a, (k0_off90 v177) a + S32x1x640.size a ≤ S32x110x640.size a := fun v177 k0_hw26 => k0_hw26.2

def k0_off91 (v184 : BitVec 32) : Fin 3 → Nat :=
  let c0_i32_481 : BitVec 32 := 0#32
  let c0_i32_482 : BitVec 32 := 0#32
  ![0, v184.toNat, 0]

def k0_chk27 (v184 : BitVec 32) : Prop :=
  (∀ a, (k0_off27 v184) a + S32x1x640.size a ≤ S32x110x640.size a) ∧
  (∀ a, (k0_off91 v184) a + S32x1x640.size a ≤ S32x110x640.size a)
instance k0_chk27.dec : ∀ (v184 : BitVec 32), Decidable (k0_chk27 v184) := fun v184 => decidable_of_iff' _ (Iff.of_eq (k0_chk27.eq_1 v184))
theorem k0_off27_inb : ∀ (v184 : BitVec 32) (k0_hw27 : k0_chk27 v184), ∀ a, (k0_off27 v184) a + S32x1x640.size a ≤ S32x110x640.size a := fun v184 k0_hw27 => k0_hw27.1
theorem k0_off91_inb : ∀ (v184 : BitVec 32) (k0_hw27 : k0_chk27 v184), ∀ a, (k0_off91 v184) a + S32x1x640.size a ≤ S32x110x640.size a := fun v184 k0_hw27 => k0_hw27.2

def k0_off92 (v191 : BitVec 32) : Fin 3 → Nat :=
  let c0_i32_487 : BitVec 32 := 0#32
  let c0_i32_488 : BitVec 32 := 0#32
  ![0, v191.toNat, 0]

def k0_chk28 (v191 : BitVec 32) : Prop :=
  (∀ a, (k0_off28 v191) a + S32x1x640.size a ≤ S32x110x640.size a) ∧
  (∀ a, (k0_off92 v191) a + S32x1x640.size a ≤ S32x110x640.size a)
instance k0_chk28.dec : ∀ (v191 : BitVec 32), Decidable (k0_chk28 v191) := fun v191 => decidable_of_iff' _ (Iff.of_eq (k0_chk28.eq_1 v191))
theorem k0_off28_inb : ∀ (v191 : BitVec 32) (k0_hw28 : k0_chk28 v191), ∀ a, (k0_off28 v191) a + S32x1x640.size a ≤ S32x110x640.size a := fun v191 k0_hw28 => k0_hw28.1
theorem k0_off92_inb : ∀ (v191 : BitVec 32) (k0_hw28 : k0_chk28 v191), ∀ a, (k0_off92 v191) a + S32x1x640.size a ≤ S32x110x640.size a := fun v191 k0_hw28 => k0_hw28.2

def k0_off93 (v198 : BitVec 32) : Fin 3 → Nat :=
  let c0_i32_493 : BitVec 32 := 0#32
  let c0_i32_494 : BitVec 32 := 0#32
  ![0, v198.toNat, 0]

def k0_chk29 (v198 : BitVec 32) : Prop :=
  (∀ a, (k0_off29 v198) a + S32x1x640.size a ≤ S32x110x640.size a) ∧
  (∀ a, (k0_off93 v198) a + S32x1x640.size a ≤ S32x110x640.size a)
instance k0_chk29.dec : ∀ (v198 : BitVec 32), Decidable (k0_chk29 v198) := fun v198 => decidable_of_iff' _ (Iff.of_eq (k0_chk29.eq_1 v198))
theorem k0_off29_inb : ∀ (v198 : BitVec 32) (k0_hw29 : k0_chk29 v198), ∀ a, (k0_off29 v198) a + S32x1x640.size a ≤ S32x110x640.size a := fun v198 k0_hw29 => k0_hw29.1
theorem k0_off93_inb : ∀ (v198 : BitVec 32) (k0_hw29 : k0_chk29 v198), ∀ a, (k0_off93 v198) a + S32x1x640.size a ≤ S32x110x640.size a := fun v198 k0_hw29 => k0_hw29.2

def k0_off94 (v205 : BitVec 32) : Fin 3 → Nat :=
  let c0_i32_499 : BitVec 32 := 0#32
  let c0_i32_500 : BitVec 32 := 0#32
  ![0, v205.toNat, 0]

def k0_chk30 (v205 : BitVec 32) : Prop :=
  (∀ a, (k0_off30 v205) a + S32x1x640.size a ≤ S32x110x640.size a) ∧
  (∀ a, (k0_off94 v205) a + S32x1x640.size a ≤ S32x110x640.size a)
instance k0_chk30.dec : ∀ (v205 : BitVec 32), Decidable (k0_chk30 v205) := fun v205 => decidable_of_iff' _ (Iff.of_eq (k0_chk30.eq_1 v205))
theorem k0_off30_inb : ∀ (v205 : BitVec 32) (k0_hw30 : k0_chk30 v205), ∀ a, (k0_off30 v205) a + S32x1x640.size a ≤ S32x110x640.size a := fun v205 k0_hw30 => k0_hw30.1
theorem k0_off94_inb : ∀ (v205 : BitVec 32) (k0_hw30 : k0_chk30 v205), ∀ a, (k0_off94 v205) a + S32x1x640.size a ≤ S32x110x640.size a := fun v205 k0_hw30 => k0_hw30.2

def k0_off95 (v212 : BitVec 32) : Fin 3 → Nat :=
  let c0_i32_505 : BitVec 32 := 0#32
  let c0_i32_506 : BitVec 32 := 0#32
  ![0, v212.toNat, 0]

def k0_chk31 (v212 : BitVec 32) : Prop :=
  (∀ a, (k0_off31 v212) a + S32x1x640.size a ≤ S32x110x640.size a) ∧
  (∀ a, (k0_off95 v212) a + S32x1x640.size a ≤ S32x110x640.size a)
instance k0_chk31.dec : ∀ (v212 : BitVec 32), Decidable (k0_chk31 v212) := fun v212 => decidable_of_iff' _ (Iff.of_eq (k0_chk31.eq_1 v212))
theorem k0_off31_inb : ∀ (v212 : BitVec 32) (k0_hw31 : k0_chk31 v212), ∀ a, (k0_off31 v212) a + S32x1x640.size a ≤ S32x110x640.size a := fun v212 k0_hw31 => k0_hw31.1
theorem k0_off95_inb : ∀ (v212 : BitVec 32) (k0_hw31 : k0_chk31 v212), ∀ a, (k0_off95 v212) a + S32x1x640.size a ≤ S32x110x640.size a := fun v212 k0_hw31 => k0_hw31.2

def k0_off96 (v219 : BitVec 32) : Fin 3 → Nat :=
  let c0_i32_511 : BitVec 32 := 0#32
  let c0_i32_512 : BitVec 32 := 0#32
  ![0, v219.toNat, 0]

def k0_chk32 (v219 : BitVec 32) : Prop :=
  (∀ a, (k0_off32 v219) a + S32x1x640.size a ≤ S32x110x640.size a) ∧
  (∀ a, (k0_off96 v219) a + S32x1x640.size a ≤ S32x110x640.size a)
instance k0_chk32.dec : ∀ (v219 : BitVec 32), Decidable (k0_chk32 v219) := fun v219 => decidable_of_iff' _ (Iff.of_eq (k0_chk32.eq_1 v219))
theorem k0_off32_inb : ∀ (v219 : BitVec 32) (k0_hw32 : k0_chk32 v219), ∀ a, (k0_off32 v219) a + S32x1x640.size a ≤ S32x110x640.size a := fun v219 k0_hw32 => k0_hw32.1
theorem k0_off96_inb : ∀ (v219 : BitVec 32) (k0_hw32 : k0_chk32 v219), ∀ a, (k0_off96 v219) a + S32x1x640.size a ≤ S32x110x640.size a := fun v219 k0_hw32 => k0_hw32.2

def k0_off97 (v226 : BitVec 32) : Fin 3 → Nat :=
  let c0_i32_517 : BitVec 32 := 0#32
  let c0_i32_518 : BitVec 32 := 0#32
  ![0, v226.toNat, 0]

def k0_chk33 (v226 : BitVec 32) : Prop :=
  (∀ a, (k0_off33 v226) a + S32x1x640.size a ≤ S32x110x640.size a) ∧
  (∀ a, (k0_off97 v226) a + S32x1x640.size a ≤ S32x110x640.size a)
instance k0_chk33.dec : ∀ (v226 : BitVec 32), Decidable (k0_chk33 v226) := fun v226 => decidable_of_iff' _ (Iff.of_eq (k0_chk33.eq_1 v226))
theorem k0_off33_inb : ∀ (v226 : BitVec 32) (k0_hw33 : k0_chk33 v226), ∀ a, (k0_off33 v226) a + S32x1x640.size a ≤ S32x110x640.size a := fun v226 k0_hw33 => k0_hw33.1
theorem k0_off97_inb : ∀ (v226 : BitVec 32) (k0_hw33 : k0_chk33 v226), ∀ a, (k0_off97 v226) a + S32x1x640.size a ≤ S32x110x640.size a := fun v226 k0_hw33 => k0_hw33.2

def k0_off98 (v233 : BitVec 32) : Fin 3 → Nat :=
  let c0_i32_523 : BitVec 32 := 0#32
  let c0_i32_524 : BitVec 32 := 0#32
  ![0, v233.toNat, 0]

def k0_chk34 (v233 : BitVec 32) : Prop :=
  (∀ a, (k0_off34 v233) a + S32x1x640.size a ≤ S32x110x640.size a) ∧
  (∀ a, (k0_off98 v233) a + S32x1x640.size a ≤ S32x110x640.size a)
instance k0_chk34.dec : ∀ (v233 : BitVec 32), Decidable (k0_chk34 v233) := fun v233 => decidable_of_iff' _ (Iff.of_eq (k0_chk34.eq_1 v233))
theorem k0_off34_inb : ∀ (v233 : BitVec 32) (k0_hw34 : k0_chk34 v233), ∀ a, (k0_off34 v233) a + S32x1x640.size a ≤ S32x110x640.size a := fun v233 k0_hw34 => k0_hw34.1
theorem k0_off98_inb : ∀ (v233 : BitVec 32) (k0_hw34 : k0_chk34 v233), ∀ a, (k0_off98 v233) a + S32x1x640.size a ≤ S32x110x640.size a := fun v233 k0_hw34 => k0_hw34.2

def k0_off99 (v240 : BitVec 32) : Fin 3 → Nat :=
  let c0_i32_529 : BitVec 32 := 0#32
  let c0_i32_530 : BitVec 32 := 0#32
  ![0, v240.toNat, 0]

def k0_chk35 (v240 : BitVec 32) : Prop :=
  (∀ a, (k0_off35 v240) a + S32x1x640.size a ≤ S32x110x640.size a) ∧
  (∀ a, (k0_off99 v240) a + S32x1x640.size a ≤ S32x110x640.size a)
instance k0_chk35.dec : ∀ (v240 : BitVec 32), Decidable (k0_chk35 v240) := fun v240 => decidable_of_iff' _ (Iff.of_eq (k0_chk35.eq_1 v240))
theorem k0_off35_inb : ∀ (v240 : BitVec 32) (k0_hw35 : k0_chk35 v240), ∀ a, (k0_off35 v240) a + S32x1x640.size a ≤ S32x110x640.size a := fun v240 k0_hw35 => k0_hw35.1
theorem k0_off99_inb : ∀ (v240 : BitVec 32) (k0_hw35 : k0_chk35 v240), ∀ a, (k0_off99 v240) a + S32x1x640.size a ≤ S32x110x640.size a := fun v240 k0_hw35 => k0_hw35.2

def k0_off100 (v247 : BitVec 32) : Fin 3 → Nat :=
  let c0_i32_535 : BitVec 32 := 0#32
  let c0_i32_536 : BitVec 32 := 0#32
  ![0, v247.toNat, 0]

def k0_chk36 (v247 : BitVec 32) : Prop :=
  (∀ a, (k0_off36 v247) a + S32x1x640.size a ≤ S32x110x640.size a) ∧
  (∀ a, (k0_off100 v247) a + S32x1x640.size a ≤ S32x110x640.size a)
instance k0_chk36.dec : ∀ (v247 : BitVec 32), Decidable (k0_chk36 v247) := fun v247 => decidable_of_iff' _ (Iff.of_eq (k0_chk36.eq_1 v247))
theorem k0_off36_inb : ∀ (v247 : BitVec 32) (k0_hw36 : k0_chk36 v247), ∀ a, (k0_off36 v247) a + S32x1x640.size a ≤ S32x110x640.size a := fun v247 k0_hw36 => k0_hw36.1
theorem k0_off100_inb : ∀ (v247 : BitVec 32) (k0_hw36 : k0_chk36 v247), ∀ a, (k0_off100 v247) a + S32x1x640.size a ≤ S32x110x640.size a := fun v247 k0_hw36 => k0_hw36.2

def k0_off101 (v254 : BitVec 32) : Fin 3 → Nat :=
  let c0_i32_541 : BitVec 32 := 0#32
  let c0_i32_542 : BitVec 32 := 0#32
  ![0, v254.toNat, 0]

def k0_chk37 (v254 : BitVec 32) : Prop :=
  (∀ a, (k0_off37 v254) a + S32x1x640.size a ≤ S32x110x640.size a) ∧
  (∀ a, (k0_off101 v254) a + S32x1x640.size a ≤ S32x110x640.size a)
instance k0_chk37.dec : ∀ (v254 : BitVec 32), Decidable (k0_chk37 v254) := fun v254 => decidable_of_iff' _ (Iff.of_eq (k0_chk37.eq_1 v254))
theorem k0_off37_inb : ∀ (v254 : BitVec 32) (k0_hw37 : k0_chk37 v254), ∀ a, (k0_off37 v254) a + S32x1x640.size a ≤ S32x110x640.size a := fun v254 k0_hw37 => k0_hw37.1
theorem k0_off101_inb : ∀ (v254 : BitVec 32) (k0_hw37 : k0_chk37 v254), ∀ a, (k0_off101 v254) a + S32x1x640.size a ≤ S32x110x640.size a := fun v254 k0_hw37 => k0_hw37.2

def k0_off102 (v261 : BitVec 32) : Fin 3 → Nat :=
  let c0_i32_547 : BitVec 32 := 0#32
  let c0_i32_548 : BitVec 32 := 0#32
  ![0, v261.toNat, 0]

def k0_chk38 (v261 : BitVec 32) : Prop :=
  (∀ a, (k0_off38 v261) a + S32x1x640.size a ≤ S32x110x640.size a) ∧
  (∀ a, (k0_off102 v261) a + S32x1x640.size a ≤ S32x110x640.size a)
instance k0_chk38.dec : ∀ (v261 : BitVec 32), Decidable (k0_chk38 v261) := fun v261 => decidable_of_iff' _ (Iff.of_eq (k0_chk38.eq_1 v261))
theorem k0_off38_inb : ∀ (v261 : BitVec 32) (k0_hw38 : k0_chk38 v261), ∀ a, (k0_off38 v261) a + S32x1x640.size a ≤ S32x110x640.size a := fun v261 k0_hw38 => k0_hw38.1
theorem k0_off102_inb : ∀ (v261 : BitVec 32) (k0_hw38 : k0_chk38 v261), ∀ a, (k0_off102 v261) a + S32x1x640.size a ≤ S32x110x640.size a := fun v261 k0_hw38 => k0_hw38.2

def k0_off103 (v268 : BitVec 32) : Fin 3 → Nat :=
  let c0_i32_553 : BitVec 32 := 0#32
  let c0_i32_554 : BitVec 32 := 0#32
  ![0, v268.toNat, 0]

def k0_chk39 (v268 : BitVec 32) : Prop :=
  (∀ a, (k0_off39 v268) a + S32x1x640.size a ≤ S32x110x640.size a) ∧
  (∀ a, (k0_off103 v268) a + S32x1x640.size a ≤ S32x110x640.size a)
instance k0_chk39.dec : ∀ (v268 : BitVec 32), Decidable (k0_chk39 v268) := fun v268 => decidable_of_iff' _ (Iff.of_eq (k0_chk39.eq_1 v268))
theorem k0_off39_inb : ∀ (v268 : BitVec 32) (k0_hw39 : k0_chk39 v268), ∀ a, (k0_off39 v268) a + S32x1x640.size a ≤ S32x110x640.size a := fun v268 k0_hw39 => k0_hw39.1
theorem k0_off103_inb : ∀ (v268 : BitVec 32) (k0_hw39 : k0_chk39 v268), ∀ a, (k0_off103 v268) a + S32x1x640.size a ≤ S32x110x640.size a := fun v268 k0_hw39 => k0_hw39.2

def k0_off104 (v275 : BitVec 32) : Fin 3 → Nat :=
  let c0_i32_559 : BitVec 32 := 0#32
  let c0_i32_560 : BitVec 32 := 0#32
  ![0, v275.toNat, 0]

def k0_chk40 (v275 : BitVec 32) : Prop :=
  (∀ a, (k0_off40 v275) a + S32x1x640.size a ≤ S32x110x640.size a) ∧
  (∀ a, (k0_off104 v275) a + S32x1x640.size a ≤ S32x110x640.size a)
instance k0_chk40.dec : ∀ (v275 : BitVec 32), Decidable (k0_chk40 v275) := fun v275 => decidable_of_iff' _ (Iff.of_eq (k0_chk40.eq_1 v275))
theorem k0_off40_inb : ∀ (v275 : BitVec 32) (k0_hw40 : k0_chk40 v275), ∀ a, (k0_off40 v275) a + S32x1x640.size a ≤ S32x110x640.size a := fun v275 k0_hw40 => k0_hw40.1
theorem k0_off104_inb : ∀ (v275 : BitVec 32) (k0_hw40 : k0_chk40 v275), ∀ a, (k0_off104 v275) a + S32x1x640.size a ≤ S32x110x640.size a := fun v275 k0_hw40 => k0_hw40.2

def k0_off105 (v282 : BitVec 32) : Fin 3 → Nat :=
  let c0_i32_565 : BitVec 32 := 0#32
  let c0_i32_566 : BitVec 32 := 0#32
  ![0, v282.toNat, 0]

def k0_chk41 (v282 : BitVec 32) : Prop :=
  (∀ a, (k0_off41 v282) a + S32x1x640.size a ≤ S32x110x640.size a) ∧
  (∀ a, (k0_off105 v282) a + S32x1x640.size a ≤ S32x110x640.size a)
instance k0_chk41.dec : ∀ (v282 : BitVec 32), Decidable (k0_chk41 v282) := fun v282 => decidable_of_iff' _ (Iff.of_eq (k0_chk41.eq_1 v282))
theorem k0_off41_inb : ∀ (v282 : BitVec 32) (k0_hw41 : k0_chk41 v282), ∀ a, (k0_off41 v282) a + S32x1x640.size a ≤ S32x110x640.size a := fun v282 k0_hw41 => k0_hw41.1
theorem k0_off105_inb : ∀ (v282 : BitVec 32) (k0_hw41 : k0_chk41 v282), ∀ a, (k0_off105 v282) a + S32x1x640.size a ≤ S32x110x640.size a := fun v282 k0_hw41 => k0_hw41.2

def k0_off106 (v289 : BitVec 32) : Fin 3 → Nat :=
  let c0_i32_571 : BitVec 32 := 0#32
  let c0_i32_572 : BitVec 32 := 0#32
  ![0, v289.toNat, 0]

def k0_chk42 (v289 : BitVec 32) : Prop :=
  (∀ a, (k0_off42 v289) a + S32x1x640.size a ≤ S32x110x640.size a) ∧
  (∀ a, (k0_off106 v289) a + S32x1x640.size a ≤ S32x110x640.size a)
instance k0_chk42.dec : ∀ (v289 : BitVec 32), Decidable (k0_chk42 v289) := fun v289 => decidable_of_iff' _ (Iff.of_eq (k0_chk42.eq_1 v289))
theorem k0_off42_inb : ∀ (v289 : BitVec 32) (k0_hw42 : k0_chk42 v289), ∀ a, (k0_off42 v289) a + S32x1x640.size a ≤ S32x110x640.size a := fun v289 k0_hw42 => k0_hw42.1
theorem k0_off106_inb : ∀ (v289 : BitVec 32) (k0_hw42 : k0_chk42 v289), ∀ a, (k0_off106 v289) a + S32x1x640.size a ≤ S32x110x640.size a := fun v289 k0_hw42 => k0_hw42.2

def k0_off107 (v296 : BitVec 32) : Fin 3 → Nat :=
  let c0_i32_577 : BitVec 32 := 0#32
  let c0_i32_578 : BitVec 32 := 0#32
  ![0, v296.toNat, 0]

def k0_chk43 (v296 : BitVec 32) : Prop :=
  (∀ a, (k0_off43 v296) a + S32x1x640.size a ≤ S32x110x640.size a) ∧
  (∀ a, (k0_off107 v296) a + S32x1x640.size a ≤ S32x110x640.size a)
instance k0_chk43.dec : ∀ (v296 : BitVec 32), Decidable (k0_chk43 v296) := fun v296 => decidable_of_iff' _ (Iff.of_eq (k0_chk43.eq_1 v296))
theorem k0_off43_inb : ∀ (v296 : BitVec 32) (k0_hw43 : k0_chk43 v296), ∀ a, (k0_off43 v296) a + S32x1x640.size a ≤ S32x110x640.size a := fun v296 k0_hw43 => k0_hw43.1
theorem k0_off107_inb : ∀ (v296 : BitVec 32) (k0_hw43 : k0_chk43 v296), ∀ a, (k0_off107 v296) a + S32x1x640.size a ≤ S32x110x640.size a := fun v296 k0_hw43 => k0_hw43.2

def k0_off108 (v303 : BitVec 32) : Fin 3 → Nat :=
  let c0_i32_583 : BitVec 32 := 0#32
  let c0_i32_584 : BitVec 32 := 0#32
  ![0, v303.toNat, 0]

def k0_chk44 (v303 : BitVec 32) : Prop :=
  (∀ a, (k0_off44 v303) a + S32x1x640.size a ≤ S32x110x640.size a) ∧
  (∀ a, (k0_off108 v303) a + S32x1x640.size a ≤ S32x110x640.size a)
instance k0_chk44.dec : ∀ (v303 : BitVec 32), Decidable (k0_chk44 v303) := fun v303 => decidable_of_iff' _ (Iff.of_eq (k0_chk44.eq_1 v303))
theorem k0_off44_inb : ∀ (v303 : BitVec 32) (k0_hw44 : k0_chk44 v303), ∀ a, (k0_off44 v303) a + S32x1x640.size a ≤ S32x110x640.size a := fun v303 k0_hw44 => k0_hw44.1
theorem k0_off108_inb : ∀ (v303 : BitVec 32) (k0_hw44 : k0_chk44 v303), ∀ a, (k0_off108 v303) a + S32x1x640.size a ≤ S32x110x640.size a := fun v303 k0_hw44 => k0_hw44.2

def k0_off109 (v310 : BitVec 32) : Fin 3 → Nat :=
  let c0_i32_589 : BitVec 32 := 0#32
  let c0_i32_590 : BitVec 32 := 0#32
  ![0, v310.toNat, 0]

def k0_chk45 (v310 : BitVec 32) : Prop :=
  (∀ a, (k0_off45 v310) a + S32x1x640.size a ≤ S32x110x640.size a) ∧
  (∀ a, (k0_off109 v310) a + S32x1x640.size a ≤ S32x110x640.size a)
instance k0_chk45.dec : ∀ (v310 : BitVec 32), Decidable (k0_chk45 v310) := fun v310 => decidable_of_iff' _ (Iff.of_eq (k0_chk45.eq_1 v310))
theorem k0_off45_inb : ∀ (v310 : BitVec 32) (k0_hw45 : k0_chk45 v310), ∀ a, (k0_off45 v310) a + S32x1x640.size a ≤ S32x110x640.size a := fun v310 k0_hw45 => k0_hw45.1
theorem k0_off109_inb : ∀ (v310 : BitVec 32) (k0_hw45 : k0_chk45 v310), ∀ a, (k0_off109 v310) a + S32x1x640.size a ≤ S32x110x640.size a := fun v310 k0_hw45 => k0_hw45.2

def k0_off110 (v317 : BitVec 32) : Fin 3 → Nat :=
  let c0_i32_595 : BitVec 32 := 0#32
  let c0_i32_596 : BitVec 32 := 0#32
  ![0, v317.toNat, 0]

def k0_chk46 (v317 : BitVec 32) : Prop :=
  (∀ a, (k0_off46 v317) a + S32x1x640.size a ≤ S32x110x640.size a) ∧
  (∀ a, (k0_off110 v317) a + S32x1x640.size a ≤ S32x110x640.size a)
instance k0_chk46.dec : ∀ (v317 : BitVec 32), Decidable (k0_chk46 v317) := fun v317 => decidable_of_iff' _ (Iff.of_eq (k0_chk46.eq_1 v317))
theorem k0_off46_inb : ∀ (v317 : BitVec 32) (k0_hw46 : k0_chk46 v317), ∀ a, (k0_off46 v317) a + S32x1x640.size a ≤ S32x110x640.size a := fun v317 k0_hw46 => k0_hw46.1
theorem k0_off110_inb : ∀ (v317 : BitVec 32) (k0_hw46 : k0_chk46 v317), ∀ a, (k0_off110 v317) a + S32x1x640.size a ≤ S32x110x640.size a := fun v317 k0_hw46 => k0_hw46.2

def k0_off111 (v324 : BitVec 32) : Fin 3 → Nat :=
  let c0_i32_601 : BitVec 32 := 0#32
  let c0_i32_602 : BitVec 32 := 0#32
  ![0, v324.toNat, 0]

def k0_chk47 (v324 : BitVec 32) : Prop :=
  (∀ a, (k0_off47 v324) a + S32x1x640.size a ≤ S32x110x640.size a) ∧
  (∀ a, (k0_off111 v324) a + S32x1x640.size a ≤ S32x110x640.size a)
instance k0_chk47.dec : ∀ (v324 : BitVec 32), Decidable (k0_chk47 v324) := fun v324 => decidable_of_iff' _ (Iff.of_eq (k0_chk47.eq_1 v324))
theorem k0_off47_inb : ∀ (v324 : BitVec 32) (k0_hw47 : k0_chk47 v324), ∀ a, (k0_off47 v324) a + S32x1x640.size a ≤ S32x110x640.size a := fun v324 k0_hw47 => k0_hw47.1
theorem k0_off111_inb : ∀ (v324 : BitVec 32) (k0_hw47 : k0_chk47 v324), ∀ a, (k0_off111 v324) a + S32x1x640.size a ≤ S32x110x640.size a := fun v324 k0_hw47 => k0_hw47.2

def k0_off112 (v331 : BitVec 32) : Fin 3 → Nat :=
  let c0_i32_607 : BitVec 32 := 0#32
  let c0_i32_608 : BitVec 32 := 0#32
  ![0, v331.toNat, 0]

def k0_chk48 (v331 : BitVec 32) : Prop :=
  (∀ a, (k0_off48 v331) a + S32x1x640.size a ≤ S32x110x640.size a) ∧
  (∀ a, (k0_off112 v331) a + S32x1x640.size a ≤ S32x110x640.size a)
instance k0_chk48.dec : ∀ (v331 : BitVec 32), Decidable (k0_chk48 v331) := fun v331 => decidable_of_iff' _ (Iff.of_eq (k0_chk48.eq_1 v331))
theorem k0_off48_inb : ∀ (v331 : BitVec 32) (k0_hw48 : k0_chk48 v331), ∀ a, (k0_off48 v331) a + S32x1x640.size a ≤ S32x110x640.size a := fun v331 k0_hw48 => k0_hw48.1
theorem k0_off112_inb : ∀ (v331 : BitVec 32) (k0_hw48 : k0_chk48 v331), ∀ a, (k0_off112 v331) a + S32x1x640.size a ≤ S32x110x640.size a := fun v331 k0_hw48 => k0_hw48.2

def k0_off113 (v338 : BitVec 32) : Fin 3 → Nat :=
  let c0_i32_613 : BitVec 32 := 0#32
  let c0_i32_614 : BitVec 32 := 0#32
  ![0, v338.toNat, 0]

def k0_chk49 (v338 : BitVec 32) : Prop :=
  (∀ a, (k0_off49 v338) a + S32x1x640.size a ≤ S32x110x640.size a) ∧
  (∀ a, (k0_off113 v338) a + S32x1x640.size a ≤ S32x110x640.size a)
instance k0_chk49.dec : ∀ (v338 : BitVec 32), Decidable (k0_chk49 v338) := fun v338 => decidable_of_iff' _ (Iff.of_eq (k0_chk49.eq_1 v338))
theorem k0_off49_inb : ∀ (v338 : BitVec 32) (k0_hw49 : k0_chk49 v338), ∀ a, (k0_off49 v338) a + S32x1x640.size a ≤ S32x110x640.size a := fun v338 k0_hw49 => k0_hw49.1
theorem k0_off113_inb : ∀ (v338 : BitVec 32) (k0_hw49 : k0_chk49 v338), ∀ a, (k0_off113 v338) a + S32x1x640.size a ≤ S32x110x640.size a := fun v338 k0_hw49 => k0_hw49.2

def k0_off114 (v345 : BitVec 32) : Fin 3 → Nat :=
  let c0_i32_619 : BitVec 32 := 0#32
  let c0_i32_620 : BitVec 32 := 0#32
  ![0, v345.toNat, 0]

def k0_chk50 (v345 : BitVec 32) : Prop :=
  (∀ a, (k0_off50 v345) a + S32x1x640.size a ≤ S32x110x640.size a) ∧
  (∀ a, (k0_off114 v345) a + S32x1x640.size a ≤ S32x110x640.size a)
instance k0_chk50.dec : ∀ (v345 : BitVec 32), Decidable (k0_chk50 v345) := fun v345 => decidable_of_iff' _ (Iff.of_eq (k0_chk50.eq_1 v345))
theorem k0_off50_inb : ∀ (v345 : BitVec 32) (k0_hw50 : k0_chk50 v345), ∀ a, (k0_off50 v345) a + S32x1x640.size a ≤ S32x110x640.size a := fun v345 k0_hw50 => k0_hw50.1
theorem k0_off114_inb : ∀ (v345 : BitVec 32) (k0_hw50 : k0_chk50 v345), ∀ a, (k0_off114 v345) a + S32x1x640.size a ≤ S32x110x640.size a := fun v345 k0_hw50 => k0_hw50.2

def k0_off115 (v352 : BitVec 32) : Fin 3 → Nat :=
  let c0_i32_625 : BitVec 32 := 0#32
  let c0_i32_626 : BitVec 32 := 0#32
  ![0, v352.toNat, 0]

def k0_chk51 (v352 : BitVec 32) : Prop :=
  (∀ a, (k0_off51 v352) a + S32x1x640.size a ≤ S32x110x640.size a) ∧
  (∀ a, (k0_off115 v352) a + S32x1x640.size a ≤ S32x110x640.size a)
instance k0_chk51.dec : ∀ (v352 : BitVec 32), Decidable (k0_chk51 v352) := fun v352 => decidable_of_iff' _ (Iff.of_eq (k0_chk51.eq_1 v352))
theorem k0_off51_inb : ∀ (v352 : BitVec 32) (k0_hw51 : k0_chk51 v352), ∀ a, (k0_off51 v352) a + S32x1x640.size a ≤ S32x110x640.size a := fun v352 k0_hw51 => k0_hw51.1
theorem k0_off115_inb : ∀ (v352 : BitVec 32) (k0_hw51 : k0_chk51 v352), ∀ a, (k0_off115 v352) a + S32x1x640.size a ≤ S32x110x640.size a := fun v352 k0_hw51 => k0_hw51.2

def k0_off116 (v359 : BitVec 32) : Fin 3 → Nat :=
  let c0_i32_631 : BitVec 32 := 0#32
  let c0_i32_632 : BitVec 32 := 0#32
  ![0, v359.toNat, 0]

def k0_chk52 (v359 : BitVec 32) : Prop :=
  (∀ a, (k0_off52 v359) a + S32x1x640.size a ≤ S32x110x640.size a) ∧
  (∀ a, (k0_off116 v359) a + S32x1x640.size a ≤ S32x110x640.size a)
instance k0_chk52.dec : ∀ (v359 : BitVec 32), Decidable (k0_chk52 v359) := fun v359 => decidable_of_iff' _ (Iff.of_eq (k0_chk52.eq_1 v359))
theorem k0_off52_inb : ∀ (v359 : BitVec 32) (k0_hw52 : k0_chk52 v359), ∀ a, (k0_off52 v359) a + S32x1x640.size a ≤ S32x110x640.size a := fun v359 k0_hw52 => k0_hw52.1
theorem k0_off116_inb : ∀ (v359 : BitVec 32) (k0_hw52 : k0_chk52 v359), ∀ a, (k0_off116 v359) a + S32x1x640.size a ≤ S32x110x640.size a := fun v359 k0_hw52 => k0_hw52.2

def k0_off117 (v366 : BitVec 32) : Fin 3 → Nat :=
  let c0_i32_637 : BitVec 32 := 0#32
  let c0_i32_638 : BitVec 32 := 0#32
  ![0, v366.toNat, 0]

def k0_chk53 (v366 : BitVec 32) : Prop :=
  (∀ a, (k0_off53 v366) a + S32x1x640.size a ≤ S32x110x640.size a) ∧
  (∀ a, (k0_off117 v366) a + S32x1x640.size a ≤ S32x110x640.size a)
instance k0_chk53.dec : ∀ (v366 : BitVec 32), Decidable (k0_chk53 v366) := fun v366 => decidable_of_iff' _ (Iff.of_eq (k0_chk53.eq_1 v366))
theorem k0_off53_inb : ∀ (v366 : BitVec 32) (k0_hw53 : k0_chk53 v366), ∀ a, (k0_off53 v366) a + S32x1x640.size a ≤ S32x110x640.size a := fun v366 k0_hw53 => k0_hw53.1
theorem k0_off117_inb : ∀ (v366 : BitVec 32) (k0_hw53 : k0_chk53 v366), ∀ a, (k0_off117 v366) a + S32x1x640.size a ≤ S32x110x640.size a := fun v366 k0_hw53 => k0_hw53.2

def k0_off118 (v373 : BitVec 32) : Fin 3 → Nat :=
  let c0_i32_643 : BitVec 32 := 0#32
  let c0_i32_644 : BitVec 32 := 0#32
  ![0, v373.toNat, 0]

def k0_chk54 (v373 : BitVec 32) : Prop :=
  (∀ a, (k0_off54 v373) a + S32x1x640.size a ≤ S32x110x640.size a) ∧
  (∀ a, (k0_off118 v373) a + S32x1x640.size a ≤ S32x110x640.size a)
instance k0_chk54.dec : ∀ (v373 : BitVec 32), Decidable (k0_chk54 v373) := fun v373 => decidable_of_iff' _ (Iff.of_eq (k0_chk54.eq_1 v373))
theorem k0_off54_inb : ∀ (v373 : BitVec 32) (k0_hw54 : k0_chk54 v373), ∀ a, (k0_off54 v373) a + S32x1x640.size a ≤ S32x110x640.size a := fun v373 k0_hw54 => k0_hw54.1
theorem k0_off118_inb : ∀ (v373 : BitVec 32) (k0_hw54 : k0_chk54 v373), ∀ a, (k0_off118 v373) a + S32x1x640.size a ≤ S32x110x640.size a := fun v373 k0_hw54 => k0_hw54.2

def k0_off119 (v380 : BitVec 32) : Fin 3 → Nat :=
  let c0_i32_649 : BitVec 32 := 0#32
  let c0_i32_650 : BitVec 32 := 0#32
  ![0, v380.toNat, 0]

def k0_chk55 (v380 : BitVec 32) : Prop :=
  (∀ a, (k0_off55 v380) a + S32x1x640.size a ≤ S32x110x640.size a) ∧
  (∀ a, (k0_off119 v380) a + S32x1x640.size a ≤ S32x110x640.size a)
instance k0_chk55.dec : ∀ (v380 : BitVec 32), Decidable (k0_chk55 v380) := fun v380 => decidable_of_iff' _ (Iff.of_eq (k0_chk55.eq_1 v380))
theorem k0_off55_inb : ∀ (v380 : BitVec 32) (k0_hw55 : k0_chk55 v380), ∀ a, (k0_off55 v380) a + S32x1x640.size a ≤ S32x110x640.size a := fun v380 k0_hw55 => k0_hw55.1
theorem k0_off119_inb : ∀ (v380 : BitVec 32) (k0_hw55 : k0_chk55 v380), ∀ a, (k0_off119 v380) a + S32x1x640.size a ≤ S32x110x640.size a := fun v380 k0_hw55 => k0_hw55.2

def k0_off120 (v387 : BitVec 32) : Fin 3 → Nat :=
  let c0_i32_655 : BitVec 32 := 0#32
  let c0_i32_656 : BitVec 32 := 0#32
  ![0, v387.toNat, 0]

def k0_chk56 (v387 : BitVec 32) : Prop :=
  (∀ a, (k0_off56 v387) a + S32x1x640.size a ≤ S32x110x640.size a) ∧
  (∀ a, (k0_off120 v387) a + S32x1x640.size a ≤ S32x110x640.size a)
instance k0_chk56.dec : ∀ (v387 : BitVec 32), Decidable (k0_chk56 v387) := fun v387 => decidable_of_iff' _ (Iff.of_eq (k0_chk56.eq_1 v387))
theorem k0_off56_inb : ∀ (v387 : BitVec 32) (k0_hw56 : k0_chk56 v387), ∀ a, (k0_off56 v387) a + S32x1x640.size a ≤ S32x110x640.size a := fun v387 k0_hw56 => k0_hw56.1
theorem k0_off120_inb : ∀ (v387 : BitVec 32) (k0_hw56 : k0_chk56 v387), ∀ a, (k0_off120 v387) a + S32x1x640.size a ≤ S32x110x640.size a := fun v387 k0_hw56 => k0_hw56.2

def k0_off121 (v394 : BitVec 32) : Fin 3 → Nat :=
  let c0_i32_661 : BitVec 32 := 0#32
  let c0_i32_662 : BitVec 32 := 0#32
  ![0, v394.toNat, 0]

def k0_chk57 (v394 : BitVec 32) : Prop :=
  (∀ a, (k0_off57 v394) a + S32x1x640.size a ≤ S32x110x640.size a) ∧
  (∀ a, (k0_off121 v394) a + S32x1x640.size a ≤ S32x110x640.size a)
instance k0_chk57.dec : ∀ (v394 : BitVec 32), Decidable (k0_chk57 v394) := fun v394 => decidable_of_iff' _ (Iff.of_eq (k0_chk57.eq_1 v394))
theorem k0_off57_inb : ∀ (v394 : BitVec 32) (k0_hw57 : k0_chk57 v394), ∀ a, (k0_off57 v394) a + S32x1x640.size a ≤ S32x110x640.size a := fun v394 k0_hw57 => k0_hw57.1
theorem k0_off121_inb : ∀ (v394 : BitVec 32) (k0_hw57 : k0_chk57 v394), ∀ a, (k0_off121 v394) a + S32x1x640.size a ≤ S32x110x640.size a := fun v394 k0_hw57 => k0_hw57.2

def k0_off122 (v401 : BitVec 32) : Fin 3 → Nat :=
  let c0_i32_667 : BitVec 32 := 0#32
  let c0_i32_668 : BitVec 32 := 0#32
  ![0, v401.toNat, 0]

def k0_chk58 (v401 : BitVec 32) : Prop :=
  (∀ a, (k0_off58 v401) a + S32x1x640.size a ≤ S32x110x640.size a) ∧
  (∀ a, (k0_off122 v401) a + S32x1x640.size a ≤ S32x110x640.size a)
instance k0_chk58.dec : ∀ (v401 : BitVec 32), Decidable (k0_chk58 v401) := fun v401 => decidable_of_iff' _ (Iff.of_eq (k0_chk58.eq_1 v401))
theorem k0_off58_inb : ∀ (v401 : BitVec 32) (k0_hw58 : k0_chk58 v401), ∀ a, (k0_off58 v401) a + S32x1x640.size a ≤ S32x110x640.size a := fun v401 k0_hw58 => k0_hw58.1
theorem k0_off122_inb : ∀ (v401 : BitVec 32) (k0_hw58 : k0_chk58 v401), ∀ a, (k0_off122 v401) a + S32x1x640.size a ≤ S32x110x640.size a := fun v401 k0_hw58 => k0_hw58.2

def k0_off123 (v408 : BitVec 32) : Fin 3 → Nat :=
  let c0_i32_673 : BitVec 32 := 0#32
  let c0_i32_674 : BitVec 32 := 0#32
  ![0, v408.toNat, 0]

def k0_chk59 (v408 : BitVec 32) : Prop :=
  (∀ a, (k0_off59 v408) a + S32x1x640.size a ≤ S32x110x640.size a) ∧
  (∀ a, (k0_off123 v408) a + S32x1x640.size a ≤ S32x110x640.size a)
instance k0_chk59.dec : ∀ (v408 : BitVec 32), Decidable (k0_chk59 v408) := fun v408 => decidable_of_iff' _ (Iff.of_eq (k0_chk59.eq_1 v408))
theorem k0_off59_inb : ∀ (v408 : BitVec 32) (k0_hw59 : k0_chk59 v408), ∀ a, (k0_off59 v408) a + S32x1x640.size a ≤ S32x110x640.size a := fun v408 k0_hw59 => k0_hw59.1
theorem k0_off123_inb : ∀ (v408 : BitVec 32) (k0_hw59 : k0_chk59 v408), ∀ a, (k0_off123 v408) a + S32x1x640.size a ≤ S32x110x640.size a := fun v408 k0_hw59 => k0_hw59.2

def k0_off124 (v415 : BitVec 32) : Fin 3 → Nat :=
  let c0_i32_679 : BitVec 32 := 0#32
  let c0_i32_680 : BitVec 32 := 0#32
  ![0, v415.toNat, 0]

def k0_chk60 (v415 : BitVec 32) : Prop :=
  (∀ a, (k0_off60 v415) a + S32x1x640.size a ≤ S32x110x640.size a) ∧
  (∀ a, (k0_off124 v415) a + S32x1x640.size a ≤ S32x110x640.size a)
instance k0_chk60.dec : ∀ (v415 : BitVec 32), Decidable (k0_chk60 v415) := fun v415 => decidable_of_iff' _ (Iff.of_eq (k0_chk60.eq_1 v415))
theorem k0_off60_inb : ∀ (v415 : BitVec 32) (k0_hw60 : k0_chk60 v415), ∀ a, (k0_off60 v415) a + S32x1x640.size a ≤ S32x110x640.size a := fun v415 k0_hw60 => k0_hw60.1
theorem k0_off124_inb : ∀ (v415 : BitVec 32) (k0_hw60 : k0_chk60 v415), ∀ a, (k0_off124 v415) a + S32x1x640.size a ≤ S32x110x640.size a := fun v415 k0_hw60 => k0_hw60.2

def k0_off125 (v422 : BitVec 32) : Fin 3 → Nat :=
  let c0_i32_685 : BitVec 32 := 0#32
  let c0_i32_686 : BitVec 32 := 0#32
  ![0, v422.toNat, 0]

def k0_chk61 (v422 : BitVec 32) : Prop :=
  (∀ a, (k0_off61 v422) a + S32x1x640.size a ≤ S32x110x640.size a) ∧
  (∀ a, (k0_off125 v422) a + S32x1x640.size a ≤ S32x110x640.size a)
instance k0_chk61.dec : ∀ (v422 : BitVec 32), Decidable (k0_chk61 v422) := fun v422 => decidable_of_iff' _ (Iff.of_eq (k0_chk61.eq_1 v422))
theorem k0_off61_inb : ∀ (v422 : BitVec 32) (k0_hw61 : k0_chk61 v422), ∀ a, (k0_off61 v422) a + S32x1x640.size a ≤ S32x110x640.size a := fun v422 k0_hw61 => k0_hw61.1
theorem k0_off125_inb : ∀ (v422 : BitVec 32) (k0_hw61 : k0_chk61 v422), ∀ a, (k0_off125 v422) a + S32x1x640.size a ≤ S32x110x640.size a := fun v422 k0_hw61 => k0_hw61.2

def k0_off126 (v429 : BitVec 32) : Fin 3 → Nat :=
  let c0_i32_691 : BitVec 32 := 0#32
  let c0_i32_692 : BitVec 32 := 0#32
  ![0, v429.toNat, 0]

def k0_chk62 (v429 : BitVec 32) : Prop :=
  (∀ a, (k0_off62 v429) a + S32x1x640.size a ≤ S32x110x640.size a) ∧
  (∀ a, (k0_off126 v429) a + S32x1x640.size a ≤ S32x110x640.size a)
instance k0_chk62.dec : ∀ (v429 : BitVec 32), Decidable (k0_chk62 v429) := fun v429 => decidable_of_iff' _ (Iff.of_eq (k0_chk62.eq_1 v429))
theorem k0_off62_inb : ∀ (v429 : BitVec 32) (k0_hw62 : k0_chk62 v429), ∀ a, (k0_off62 v429) a + S32x1x640.size a ≤ S32x110x640.size a := fun v429 k0_hw62 => k0_hw62.1
theorem k0_off126_inb : ∀ (v429 : BitVec 32) (k0_hw62 : k0_chk62 v429), ∀ a, (k0_off126 v429) a + S32x1x640.size a ≤ S32x110x640.size a := fun v429 k0_hw62 => k0_hw62.2

def k0_off127 (v436 : BitVec 32) : Fin 3 → Nat :=
  let c0_i32_697 : BitVec 32 := 0#32
  let c0_i32_698 : BitVec 32 := 0#32
  ![0, v436.toNat, 0]

def k0_chk63 (v436 : BitVec 32) : Prop :=
  (∀ a, (k0_off63 v436) a + S32x1x640.size a ≤ S32x110x640.size a) ∧
  (∀ a, (k0_off127 v436) a + S32x1x640.size a ≤ S32x110x640.size a)
instance k0_chk63.dec : ∀ (v436 : BitVec 32), Decidable (k0_chk63 v436) := fun v436 => decidable_of_iff' _ (Iff.of_eq (k0_chk63.eq_1 v436))
theorem k0_off63_inb : ∀ (v436 : BitVec 32) (k0_hw63 : k0_chk63 v436), ∀ a, (k0_off63 v436) a + S32x1x640.size a ≤ S32x110x640.size a := fun v436 k0_hw63 => k0_hw63.1
theorem k0_off127_inb : ∀ (v436 : BitVec 32) (k0_hw63 : k0_chk63 v436), ∀ a, (k0_off127 v436) a + S32x1x640.size a ≤ S32x110x640.size a := fun v436 k0_hw63 => k0_hw63.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x110x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S32x110x640_S32x110x640_0_0_0 : ∀ a, (![0, 0, 0] : Fin 3 → Nat) a + S32x110x640.size a ≤ S32x110x640.size a
  h_S32x110x640 : 0 < S32x110x640.numel
  inb_S64_S1_0 : ∀ a, (![0] : Fin 1 → Nat) a + S1.size a ≤ S64.size a
  numel1_S1 : S1.numel = 1
  squeezes_S1_S_ : S1.Squeezes S_
  squeezes_S32x1x640_S32x640 : S32x1x640.Squeezes S32x640
  inb_S32x64x640_S32x1x640_0_0_0 : ∀ a, (![0, 0, 0] : Fin 3 → Nat) a + S32x1x640.size a ≤ S32x64x640.size a
  inb_S64_S1_1 : ∀ a, (![1] : Fin 1 → Nat) a + S1.size a ≤ S64.size a
  inb_S32x64x640_S32x1x640_0_1_0 : ∀ a, (![0, 1, 0] : Fin 3 → Nat) a + S32x1x640.size a ≤ S32x64x640.size a
  inb_S64_S1_2 : ∀ a, (![2] : Fin 1 → Nat) a + S1.size a ≤ S64.size a
  inb_S32x64x640_S32x1x640_0_2_0 : ∀ a, (![0, 2, 0] : Fin 3 → Nat) a + S32x1x640.size a ≤ S32x64x640.size a
  inb_S64_S1_3 : ∀ a, (![3] : Fin 1 → Nat) a + S1.size a ≤ S64.size a
  inb_S32x64x640_S32x1x640_0_3_0 : ∀ a, (![0, 3, 0] : Fin 3 → Nat) a + S32x1x640.size a ≤ S32x64x640.size a
  inb_S64_S1_4 : ∀ a, (![4] : Fin 1 → Nat) a + S1.size a ≤ S64.size a
  inb_S32x64x640_S32x1x640_0_4_0 : ∀ a, (![0, 4, 0] : Fin 3 → Nat) a + S32x1x640.size a ≤ S32x64x640.size a
  inb_S64_S1_5 : ∀ a, (![5] : Fin 1 → Nat) a + S1.size a ≤ S64.size a
  inb_S32x64x640_S32x1x640_0_5_0 : ∀ a, (![0, 5, 0] : Fin 3 → Nat) a + S32x1x640.size a ≤ S32x64x640.size a
  inb_S64_S1_6 : ∀ a, (![6] : Fin 1 → Nat) a + S1.size a ≤ S64.size a
  inb_S32x64x640_S32x1x640_0_6_0 : ∀ a, (![0, 6, 0] : Fin 3 → Nat) a + S32x1x640.size a ≤ S32x64x640.size a
  inb_S64_S1_7 : ∀ a, (![7] : Fin 1 → Nat) a + S1.size a ≤ S64.size a
  inb_S32x64x640_S32x1x640_0_7_0 : ∀ a, (![0, 7, 0] : Fin 3 → Nat) a + S32x1x640.size a ≤ S32x64x640.size a
  inb_S64_S1_8 : ∀ a, (![8] : Fin 1 → Nat) a + S1.size a ≤ S64.size a
  inb_S32x64x640_S32x1x640_0_8_0 : ∀ a, (![0, 8, 0] : Fin 3 → Nat) a + S32x1x640.size a ≤ S32x64x640.size a
  inb_S64_S1_9 : ∀ a, (![9] : Fin 1 → Nat) a + S1.size a ≤ S64.size a
  inb_S32x64x640_S32x1x640_0_9_0 : ∀ a, (![0, 9, 0] : Fin 3 → Nat) a + S32x1x640.size a ≤ S32x64x640.size a
  inb_S64_S1_10 : ∀ a, (![10] : Fin 1 → Nat) a + S1.size a ≤ S64.size a
  inb_S32x64x640_S32x1x640_0_10_0 : ∀ a, (![0, 10, 0] : Fin 3 → Nat) a + S32x1x640.size a ≤ S32x64x640.size a
  inb_S64_S1_11 : ∀ a, (![11] : Fin 1 → Nat) a + S1.size a ≤ S64.size a
  inb_S32x64x640_S32x1x640_0_11_0 : ∀ a, (![0, 11, 0] : Fin 3 → Nat) a + S32x1x640.size a ≤ S32x64x640.size a
  inb_S64_S1_12 : ∀ a, (![12] : Fin 1 → Nat) a + S1.size a ≤ S64.size a
  inb_S32x64x640_S32x1x640_0_12_0 : ∀ a, (![0, 12, 0] : Fin 3 → Nat) a + S32x1x640.size a ≤ S32x64x640.size a
  inb_S64_S1_13 : ∀ a, (![13] : Fin 1 → Nat) a + S1.size a ≤ S64.size a
  inb_S32x64x640_S32x1x640_0_13_0 : ∀ a, (![0, 13, 0] : Fin 3 → Nat) a + S32x1x640.size a ≤ S32x64x640.size a
  inb_S64_S1_14 : ∀ a, (![14] : Fin 1 → Nat) a + S1.size a ≤ S64.size a
  inb_S32x64x640_S32x1x640_0_14_0 : ∀ a, (![0, 14, 0] : Fin 3 → Nat) a + S32x1x640.size a ≤ S32x64x640.size a
  inb_S64_S1_15 : ∀ a, (![15] : Fin 1 → Nat) a + S1.size a ≤ S64.size a
  inb_S32x64x640_S32x1x640_0_15_0 : ∀ a, (![0, 15, 0] : Fin 3 → Nat) a + S32x1x640.size a ≤ S32x64x640.size a
  inb_S64_S1_16 : ∀ a, (![16] : Fin 1 → Nat) a + S1.size a ≤ S64.size a
  inb_S32x64x640_S32x1x640_0_16_0 : ∀ a, (![0, 16, 0] : Fin 3 → Nat) a + S32x1x640.size a ≤ S32x64x640.size a
  inb_S64_S1_17 : ∀ a, (![17] : Fin 1 → Nat) a + S1.size a ≤ S64.size a
  inb_S32x64x640_S32x1x640_0_17_0 : ∀ a, (![0, 17, 0] : Fin 3 → Nat) a + S32x1x640.size a ≤ S32x64x640.size a
  inb_S64_S1_18 : ∀ a, (![18] : Fin 1 → Nat) a + S1.size a ≤ S64.size a
  inb_S32x64x640_S32x1x640_0_18_0 : ∀ a, (![0, 18, 0] : Fin 3 → Nat) a + S32x1x640.size a ≤ S32x64x640.size a
  inb_S64_S1_19 : ∀ a, (![19] : Fin 1 → Nat) a + S1.size a ≤ S64.size a
  inb_S32x64x640_S32x1x640_0_19_0 : ∀ a, (![0, 19, 0] : Fin 3 → Nat) a + S32x1x640.size a ≤ S32x64x640.size a
  inb_S64_S1_20 : ∀ a, (![20] : Fin 1 → Nat) a + S1.size a ≤ S64.size a
  inb_S32x64x640_S32x1x640_0_20_0 : ∀ a, (![0, 20, 0] : Fin 3 → Nat) a + S32x1x640.size a ≤ S32x64x640.size a
  inb_S64_S1_21 : ∀ a, (![21] : Fin 1 → Nat) a + S1.size a ≤ S64.size a
  inb_S32x64x640_S32x1x640_0_21_0 : ∀ a, (![0, 21, 0] : Fin 3 → Nat) a + S32x1x640.size a ≤ S32x64x640.size a
  inb_S64_S1_22 : ∀ a, (![22] : Fin 1 → Nat) a + S1.size a ≤ S64.size a
  inb_S32x64x640_S32x1x640_0_22_0 : ∀ a, (![0, 22, 0] : Fin 3 → Nat) a + S32x1x640.size a ≤ S32x64x640.size a
  inb_S64_S1_23 : ∀ a, (![23] : Fin 1 → Nat) a + S1.size a ≤ S64.size a
  inb_S32x64x640_S32x1x640_0_23_0 : ∀ a, (![0, 23, 0] : Fin 3 → Nat) a + S32x1x640.size a ≤ S32x64x640.size a
  inb_S64_S1_24 : ∀ a, (![24] : Fin 1 → Nat) a + S1.size a ≤ S64.size a
  inb_S32x64x640_S32x1x640_0_24_0 : ∀ a, (![0, 24, 0] : Fin 3 → Nat) a + S32x1x640.size a ≤ S32x64x640.size a
  inb_S64_S1_25 : ∀ a, (![25] : Fin 1 → Nat) a + S1.size a ≤ S64.size a
  inb_S32x64x640_S32x1x640_0_25_0 : ∀ a, (![0, 25, 0] : Fin 3 → Nat) a + S32x1x640.size a ≤ S32x64x640.size a
  inb_S64_S1_26 : ∀ a, (![26] : Fin 1 → Nat) a + S1.size a ≤ S64.size a
  inb_S32x64x640_S32x1x640_0_26_0 : ∀ a, (![0, 26, 0] : Fin 3 → Nat) a + S32x1x640.size a ≤ S32x64x640.size a
  inb_S64_S1_27 : ∀ a, (![27] : Fin 1 → Nat) a + S1.size a ≤ S64.size a
  inb_S32x64x640_S32x1x640_0_27_0 : ∀ a, (![0, 27, 0] : Fin 3 → Nat) a + S32x1x640.size a ≤ S32x64x640.size a
  inb_S64_S1_28 : ∀ a, (![28] : Fin 1 → Nat) a + S1.size a ≤ S64.size a
  inb_S32x64x640_S32x1x640_0_28_0 : ∀ a, (![0, 28, 0] : Fin 3 → Nat) a + S32x1x640.size a ≤ S32x64x640.size a
  inb_S64_S1_29 : ∀ a, (![29] : Fin 1 → Nat) a + S1.size a ≤ S64.size a
  inb_S32x64x640_S32x1x640_0_29_0 : ∀ a, (![0, 29, 0] : Fin 3 → Nat) a + S32x1x640.size a ≤ S32x64x640.size a
  inb_S64_S1_30 : ∀ a, (![30] : Fin 1 → Nat) a + S1.size a ≤ S64.size a
  inb_S32x64x640_S32x1x640_0_30_0 : ∀ a, (![0, 30, 0] : Fin 3 → Nat) a + S32x1x640.size a ≤ S32x64x640.size a
  inb_S64_S1_31 : ∀ a, (![31] : Fin 1 → Nat) a + S1.size a ≤ S64.size a
  inb_S32x64x640_S32x1x640_0_31_0 : ∀ a, (![0, 31, 0] : Fin 3 → Nat) a + S32x1x640.size a ≤ S32x64x640.size a
  inb_S64_S1_32 : ∀ a, (![32] : Fin 1 → Nat) a + S1.size a ≤ S64.size a
  inb_S32x64x640_S32x1x640_0_32_0 : ∀ a, (![0, 32, 0] : Fin 3 → Nat) a + S32x1x640.size a ≤ S32x64x640.size a
  inb_S64_S1_33 : ∀ a, (![33] : Fin 1 → Nat) a + S1.size a ≤ S64.size a
  inb_S32x64x640_S32x1x640_0_33_0 : ∀ a, (![0, 33, 0] : Fin 3 → Nat) a + S32x1x640.size a ≤ S32x64x640.size a
  inb_S64_S1_34 : ∀ a, (![34] : Fin 1 → Nat) a + S1.size a ≤ S64.size a
  inb_S32x64x640_S32x1x640_0_34_0 : ∀ a, (![0, 34, 0] : Fin 3 → Nat) a + S32x1x640.size a ≤ S32x64x640.size a
  inb_S64_S1_35 : ∀ a, (![35] : Fin 1 → Nat) a + S1.size a ≤ S64.size a
  inb_S32x64x640_S32x1x640_0_35_0 : ∀ a, (![0, 35, 0] : Fin 3 → Nat) a + S32x1x640.size a ≤ S32x64x640.size a
  inb_S64_S1_36 : ∀ a, (![36] : Fin 1 → Nat) a + S1.size a ≤ S64.size a
  inb_S32x64x640_S32x1x640_0_36_0 : ∀ a, (![0, 36, 0] : Fin 3 → Nat) a + S32x1x640.size a ≤ S32x64x640.size a
  inb_S64_S1_37 : ∀ a, (![37] : Fin 1 → Nat) a + S1.size a ≤ S64.size a
  inb_S32x64x640_S32x1x640_0_37_0 : ∀ a, (![0, 37, 0] : Fin 3 → Nat) a + S32x1x640.size a ≤ S32x64x640.size a
  inb_S64_S1_38 : ∀ a, (![38] : Fin 1 → Nat) a + S1.size a ≤ S64.size a
  inb_S32x64x640_S32x1x640_0_38_0 : ∀ a, (![0, 38, 0] : Fin 3 → Nat) a + S32x1x640.size a ≤ S32x64x640.size a
  inb_S64_S1_39 : ∀ a, (![39] : Fin 1 → Nat) a + S1.size a ≤ S64.size a
  inb_S32x64x640_S32x1x640_0_39_0 : ∀ a, (![0, 39, 0] : Fin 3 → Nat) a + S32x1x640.size a ≤ S32x64x640.size a
  inb_S64_S1_40 : ∀ a, (![40] : Fin 1 → Nat) a + S1.size a ≤ S64.size a
  inb_S32x64x640_S32x1x640_0_40_0 : ∀ a, (![0, 40, 0] : Fin 3 → Nat) a + S32x1x640.size a ≤ S32x64x640.size a
  inb_S64_S1_41 : ∀ a, (![41] : Fin 1 → Nat) a + S1.size a ≤ S64.size a
  inb_S32x64x640_S32x1x640_0_41_0 : ∀ a, (![0, 41, 0] : Fin 3 → Nat) a + S32x1x640.size a ≤ S32x64x640.size a
  inb_S64_S1_42 : ∀ a, (![42] : Fin 1 → Nat) a + S1.size a ≤ S64.size a
  inb_S32x64x640_S32x1x640_0_42_0 : ∀ a, (![0, 42, 0] : Fin 3 → Nat) a + S32x1x640.size a ≤ S32x64x640.size a
  inb_S64_S1_43 : ∀ a, (![43] : Fin 1 → Nat) a + S1.size a ≤ S64.size a
  inb_S32x64x640_S32x1x640_0_43_0 : ∀ a, (![0, 43, 0] : Fin 3 → Nat) a + S32x1x640.size a ≤ S32x64x640.size a
  inb_S64_S1_44 : ∀ a, (![44] : Fin 1 → Nat) a + S1.size a ≤ S64.size a
  inb_S32x64x640_S32x1x640_0_44_0 : ∀ a, (![0, 44, 0] : Fin 3 → Nat) a + S32x1x640.size a ≤ S32x64x640.size a
  inb_S64_S1_45 : ∀ a, (![45] : Fin 1 → Nat) a + S1.size a ≤ S64.size a
  inb_S32x64x640_S32x1x640_0_45_0 : ∀ a, (![0, 45, 0] : Fin 3 → Nat) a + S32x1x640.size a ≤ S32x64x640.size a
  inb_S64_S1_46 : ∀ a, (![46] : Fin 1 → Nat) a + S1.size a ≤ S64.size a
  inb_S32x64x640_S32x1x640_0_46_0 : ∀ a, (![0, 46, 0] : Fin 3 → Nat) a + S32x1x640.size a ≤ S32x64x640.size a
  inb_S64_S1_47 : ∀ a, (![47] : Fin 1 → Nat) a + S1.size a ≤ S64.size a
  inb_S32x64x640_S32x1x640_0_47_0 : ∀ a, (![0, 47, 0] : Fin 3 → Nat) a + S32x1x640.size a ≤ S32x64x640.size a
  inb_S64_S1_48 : ∀ a, (![48] : Fin 1 → Nat) a + S1.size a ≤ S64.size a
  inb_S32x64x640_S32x1x640_0_48_0 : ∀ a, (![0, 48, 0] : Fin 3 → Nat) a + S32x1x640.size a ≤ S32x64x640.size a
  inb_S64_S1_49 : ∀ a, (![49] : Fin 1 → Nat) a + S1.size a ≤ S64.size a
  inb_S32x64x640_S32x1x640_0_49_0 : ∀ a, (![0, 49, 0] : Fin 3 → Nat) a + S32x1x640.size a ≤ S32x64x640.size a
  inb_S64_S1_50 : ∀ a, (![50] : Fin 1 → Nat) a + S1.size a ≤ S64.size a
  inb_S32x64x640_S32x1x640_0_50_0 : ∀ a, (![0, 50, 0] : Fin 3 → Nat) a + S32x1x640.size a ≤ S32x64x640.size a
  inb_S64_S1_51 : ∀ a, (![51] : Fin 1 → Nat) a + S1.size a ≤ S64.size a
  inb_S32x64x640_S32x1x640_0_51_0 : ∀ a, (![0, 51, 0] : Fin 3 → Nat) a + S32x1x640.size a ≤ S32x64x640.size a
  inb_S64_S1_52 : ∀ a, (![52] : Fin 1 → Nat) a + S1.size a ≤ S64.size a
  inb_S32x64x640_S32x1x640_0_52_0 : ∀ a, (![0, 52, 0] : Fin 3 → Nat) a + S32x1x640.size a ≤ S32x64x640.size a
  inb_S64_S1_53 : ∀ a, (![53] : Fin 1 → Nat) a + S1.size a ≤ S64.size a
  inb_S32x64x640_S32x1x640_0_53_0 : ∀ a, (![0, 53, 0] : Fin 3 → Nat) a + S32x1x640.size a ≤ S32x64x640.size a
  inb_S64_S1_54 : ∀ a, (![54] : Fin 1 → Nat) a + S1.size a ≤ S64.size a
  inb_S32x64x640_S32x1x640_0_54_0 : ∀ a, (![0, 54, 0] : Fin 3 → Nat) a + S32x1x640.size a ≤ S32x64x640.size a
  inb_S64_S1_55 : ∀ a, (![55] : Fin 1 → Nat) a + S1.size a ≤ S64.size a
  inb_S32x64x640_S32x1x640_0_55_0 : ∀ a, (![0, 55, 0] : Fin 3 → Nat) a + S32x1x640.size a ≤ S32x64x640.size a
  inb_S64_S1_56 : ∀ a, (![56] : Fin 1 → Nat) a + S1.size a ≤ S64.size a
  inb_S32x64x640_S32x1x640_0_56_0 : ∀ a, (![0, 56, 0] : Fin 3 → Nat) a + S32x1x640.size a ≤ S32x64x640.size a
  inb_S64_S1_57 : ∀ a, (![57] : Fin 1 → Nat) a + S1.size a ≤ S64.size a
  inb_S32x64x640_S32x1x640_0_57_0 : ∀ a, (![0, 57, 0] : Fin 3 → Nat) a + S32x1x640.size a ≤ S32x64x640.size a
  inb_S64_S1_58 : ∀ a, (![58] : Fin 1 → Nat) a + S1.size a ≤ S64.size a
  inb_S32x64x640_S32x1x640_0_58_0 : ∀ a, (![0, 58, 0] : Fin 3 → Nat) a + S32x1x640.size a ≤ S32x64x640.size a
  inb_S64_S1_59 : ∀ a, (![59] : Fin 1 → Nat) a + S1.size a ≤ S64.size a
  inb_S32x64x640_S32x1x640_0_59_0 : ∀ a, (![0, 59, 0] : Fin 3 → Nat) a + S32x1x640.size a ≤ S32x64x640.size a
  inb_S64_S1_60 : ∀ a, (![60] : Fin 1 → Nat) a + S1.size a ≤ S64.size a
  inb_S32x64x640_S32x1x640_0_60_0 : ∀ a, (![0, 60, 0] : Fin 3 → Nat) a + S32x1x640.size a ≤ S32x64x640.size a
  inb_S64_S1_61 : ∀ a, (![61] : Fin 1 → Nat) a + S1.size a ≤ S64.size a
  inb_S32x64x640_S32x1x640_0_61_0 : ∀ a, (![0, 61, 0] : Fin 3 → Nat) a + S32x1x640.size a ≤ S32x64x640.size a
  inb_S64_S1_62 : ∀ a, (![62] : Fin 1 → Nat) a + S1.size a ≤ S64.size a
  inb_S32x64x640_S32x1x640_0_62_0 : ∀ a, (![0, 62, 0] : Fin 3 → Nat) a + S32x1x640.size a ≤ S32x64x640.size a
  inb_S64_S1_63 : ∀ a, (![63] : Fin 1 → Nat) a + S1.size a ≤ S64.size a
  inb_S32x64x640_S32x1x640_0_63_0 : ∀ a, (![0, 63, 0] : Fin 3 → Nat) a + S32x1x640.size a ≤ S32x64x640.size a
  shapeCasts_S512x110x640_S512x10x11x640 : S512x110x640.ShapeCasts S512x10x11x640
  hcc0_scratch0 : 4 + S64.numel ≤ 68
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x640.size a ≤ S512x64x640.size a
  hwx0_0 : ∀ i : grid0.Coords, EltTy.bits .f32 = 32 ∨ (Rect.block (s := S512x64x640) S32x64x640.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x110x640.size a ≤ S512x110x640.size a
  hwx0_1 : ∀ i : grid0.Coords, EltTy.bits .f32 = 32 ∨ (Rect.block (s := S512x110x640) S32x110x640.size (cc0_transform_1 i) (hinb0_1 i)).WholeWords (EltTy.packing .f32)

variable [Facts₀]

abbrev cc0_scratch0 : DmaSems sig S64 := SemArray.consecutive 4 S64 hcc0_scratch0

abbrev spec0_0 : Pipeline.WinSpec sig grid0.rank :=
  Pipeline.WinSpec.ofSpec (Memref.whole main_arg0) S32x64x640.size reads0_0 false false 2 stage0_0 sem0_0 nbuf0_0 hstage0_0

abbrev spec0_1 : Pipeline.WinSpec sig grid0.rank :=
  Pipeline.WinSpec.ofSpec (Memref.whole main_v0) S32x110x640.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S512x64x640 : Shape := ⟨3, ![512, 64, 640]⟩
abbrev S64 : Shape := ⟨1, ![64]⟩
abbrev S_ : Shape := ⟨0, ![]⟩
abbrev S512x110x640 : Shape := ⟨3, ![512, 110, 640]⟩
abbrev S64x1 : Shape := ⟨2, ![64, 1]⟩
abbrev S512x10x11x640 : Shape := ⟨4, ![512, 10, 11, 640]⟩

abbrev nBuf : Space → Nat
  | .hbm => 14
  | .vmem => 0
  | .smem => 0
  | _ => 0

abbrev bufTy : (tb : Table) → Fin (tcTables nBuf tb) → BufTy
  | .hbm, ⟨0, _⟩ => ⟨S512x64x640, .f32⟩
  | .hbm, ⟨1, _⟩ => ⟨S64, .i32⟩
  | .hbm, ⟨2, _⟩ => ⟨S_, .f32⟩
  | .hbm, ⟨3, _⟩ => ⟨S512x110x640, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S512x110x640, .f32⟩
  | .hbm, ⟨13, _⟩ => ⟨S512x10x11x640, .f32⟩
  | _, _ => ⟨S512x64x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S512x110x640 : S_.BroadcastsInDim S512x110x640 (![] : Fin 0 → Fin S512x110x640.rank)
  bcast_S_S64 : S_.BroadcastsInDim S64 (![] : Fin 0 → Fin S64.rank)
  bcast_S64_S64x1_0 : S64.BroadcastsInDim S64x1 (![0] : Fin 1 → Fin S64x1.rank)
  shapeCasts_S512x110x640_S512x10x11x640 : S512x110x640.ShapeCasts S512x10x11x640
  scatter_S512x110x640_S64x1_S512x64x640_02_1_1_1_wf : ScatterDims.WF S512x110x640 S64x1 S512x64x640 [0, 2] [1] [1] 1

variable [Facts₀]

def scatter_S512x110x640_S64x1_S512x64x640_02_1_1_1 : ScatterDims S512x110x640 S64x1 S512x64x640 where
  updateWindowDims := [0, 2]
  insertedWindowDims := [1]
  scatterDimsToOperandDims := [1]
  indexVectorDim := 1
  wf := scatter_S512x110x640_S64x1_S512x64x640_02_1_1_1_wf

class Facts : Prop extends Facts₀ where

variable [Facts]
-- ==== Proof.Spec.lean ====
import Idealize.ShloMosaic.Lib.ValueIdx

noncomputable section

namespace Cert.Proof.Spec

open Idealize.ShloMosaic Idealize.ShloMosaic.ValueIdx

abbrev rowOf (idx : (⟨1, ![64]⟩ : Shape).Idx → BitVec 32) (c : Fin 64) : Nat := (idx (ix1 c)).toNat

def InRange (idx : (⟨1, ![64]⟩ : Shape).Idx → BitVec 32) : Prop := ∀ c : Fin 64, rowOf idx c < 110

def Distinct (idx : (⟨1, ![64]⟩ : Shape).Idx → BitVec 32) : Prop := ∀ c c' : Fin 64, rowOf idx c = rowOf idx c' → c = c'

/-- The row scatter: row `r` of the result is the source row of a channel sent to `r`, or the fill value when no channel is. -/
def scat {α : Type} (B : Nat) (z : α) (x : (⟨3, ![B, 64, 640]⟩ : Shape).Idx → α) (idx : (⟨1, ![64]⟩ : Shape).Idx → BitVec 32) :
    (⟨3, ![B, 110, 640]⟩ : Shape).Idx → α :=
  fun j => if h : ∃ c : Fin 64, rowOf idx c = (j 1).val then x (ix3 (j 0) (Classical.choose h) (j 2)) else z

/-- Where the table is injective the channel sent to a row is unique, so any witness is that channel. -/
theorem scat_hit {α : Type} (B : Nat) (z : α) (x : (⟨3, ![B, 64, 640]⟩ : Shape).Idx → α) (idx : (⟨1, ![64]⟩ : Shape).Idx → BitVec 32)
    (hinj : Distinct idx) (b : Fin B) (r : Fin 110) (t : Fin 640) (c : Fin 64) (h : rowOf idx c = r.val) :
    scat B z x idx (ix3 b r t) = x (ix3 b c t) := by
  have hex : ∃ c : Fin 64, rowOf idx c = ((ix3 b r t : (⟨3, ![B, 110, 640]⟩ : Shape).Idx) 1).val := ⟨c, h⟩
  unfold scat
  rw [dif_pos hex]
  have hc : Classical.choose hex = c := hinj _ _ ((Classical.choose_spec hex).trans h.symm)
  rw [hc]
  rfl

/-- A row no channel is sent to holds the fill value. -/
theorem scat_miss {α : Type} (B : Nat) (z : α) (x : (⟨3, ![B, 64, 640]⟩ : Shape).Idx → α) (idx : (⟨1, ![64]⟩ : Shape).Idx → BitVec 32)
    (b : Fin B) (r : Fin 110) (t : Fin 640) (h : ∀ c : Fin 64, rowOf idx c ≠ r.val) :
    scat B z x idx (ix3 b r t) = z := by
  unfold scat
  rw [dif_neg]
  rintro ⟨c, hc⟩
  exact h c hc

end Cert.Proof.Spec

end
-- ==== Proof.PreFacts.lean ====
import proofs.«424837_j50560355008971_3_alg».proof.Pre_finite_inputs
import proofs.«424837_j50560355008971_3_alg».proof.Proof.Spec
import Idealize.ShloMosaic.Lib.StableHlo.Predicate
import Idealize.ShloMosaic.Lib.ReduceAll

namespace Cert.Proof.PreFacts

open Idealize.ShloMosaic Idealize.ShloMosaic.ValueIdx Idealize.ShloMosaic.StableHlo.Predicate

variable {F : FTy → Type} [FloatOps F] [Cert.Pre_finite_inputs.Facts]

instance : Subsingleton Cert.Pre_finite_inputs.S_.Idx := ⟨fun _ _ => funext fun d => d.elim0⟩

theorem ofFin_eq_ix1 {n : Nat} (k : Fin n) : Shape.Idx.ofFin k = ix1 k := by
  funext d; match d with | ⟨0, _⟩ => rfl

theorem toNat_lt_of_signed (w : BitVec 32) (h0 : (0#32 : BitVec 32).toInt ≤ w.toInt) (h1 : w.toInt < (110#32 : BitVec 32).toInt) :
    w.toNat < 110 := by
  have e0 : (0#32 : BitVec 32).toInt = 0 := by decide
  have e1 : (110#32 : BitVec 32).toInt = 110 := by decide
  rw [e0] at h0; rw [e1] at h1
  have hw := w.isLt
  rw [BitVec.toInt_eq_toNat_cond] at h0 h1
  split at h0 <;> omega

theorem range_at (x : FVec F Cert.Pre_finite_inputs.S512x64x640 .f32) (idx : IVec Cert.Pre_finite_inputs.S64 32)
    (h : Cert.Pre_finite_inputs.fn (F := F) x idx = fun _ => 1#1) (c : Fin 64) :
    IntOp.cmpi .sge (idx (ix1 c)) 0#32 = 1#1 ∧ IntOp.cmpi .slt (idx (ix1 c)) 110#32 = 1#1 := by
  have h0 := congrFun h ix0
  obtain ⟨h10, -⟩ := IntOp.andi_eq_one.1 h0
  obtain ⟨-, h9⟩ := IntOp.andi_eq_one.1 h10
  have h8 := Host.reduce_andi_all _ _ _ _ _ h9 (ix1 c)
  exact IntOp.andi_eq_one.1 h8

theorem count_at (x : FVec F Cert.Pre_finite_inputs.S512x64x640 .f32) (idx : IVec Cert.Pre_finite_inputs.S64 32)
    (h : Cert.Pre_finite_inputs.fn (F := F) x idx = fun _ => 1#1) (p : Fin 64) :
    (Finset.univ.filter (fun q : Fin 64 => idx (ix1 p) = idx (ix1 q))).card = 1 := by
  have h0 := congrFun h ix0
  obtain ⟨-, h20⟩ := IntOp.andi_eq_one.1 h0
  have h19 := Host.reduce_andi_all _ _ _ _ _ h20 (ix1 p)
  have h17 := IntOp.cmpi_eq.1 h19

  have hcount := congrArg BitVec.toNat h17
  rw [toNat_reduce_count_cols (by decide) _ _ _ _ (ix1 p)] at hcount

  have hbit : ∀ q : Fin 64,
      (idx (ix1 p) = idx (ix1 q)) ↔
        (cmpi .eq
          (broadcastInDim Cert.Pre_finite_inputs.S64x64 ![0, 1] Cert.Pre_finite_inputs.Facts.bcast_S64x1_S64x64_0_1
            (broadcastInDim Cert.Pre_finite_inputs.S64x1 ![0] Cert.Pre_finite_inputs.Facts.bcast_S64_S64x1_0 idx))
          (broadcastInDim Cert.Pre_finite_inputs.S64x64 ![0, 1] Cert.Pre_finite_inputs.Facts.bcast_S1x64_S64x64_0_1
            (broadcastInDim Cert.Pre_finite_inputs.S1x64 ![1] Cert.Pre_finite_inputs.Facts.bcast_S64_S1x64_1 idx))
          (ij ((ix1 p : Cert.Pre_finite_inputs.S64.Idx) 0) q) = 1#1) := by
    intro q
    show _ ↔ IntOp.cmpi .eq _ _ = 1#1
    rw [IntOp.cmpi_eq, bcast_rows, bcast_cols, ofFin_eq_ix1, ofFin_eq_ix1]
  rw [Finset.filter_congr (fun q _ => hbit q)]
  exact hcount

/-- A conjunction of one-bit tests that is 1 has every member 1: each table entry, non-negative and below 110 as a signed word, is a row of the grid. -/
theorem inRange_of_pre (x : FVec F Cert.Pre_finite_inputs.S512x64x640 .f32) (idx : IVec Cert.Pre_finite_inputs.S64 32)
    (h : Cert.Pre_finite_inputs.fn (F := F) x idx = fun _ => 1#1) : Cert.Proof.Spec.InRange idx := by
  intro c
  obtain ⟨hge, hlt⟩ := range_at x idx h c
  exact toNat_lt_of_signed _ (IntOp.cmpi_sge.1 hge) (IntOp.cmpi_slt.1 hlt)

/-- Each entry is counted once among the sixty-four, so two channels with equal entries are one channel. -/
theorem distinct_of_pre (x : FVec F Cert.Pre_finite_inputs.S512x64x640 .f32) (idx : IVec Cert.Pre_finite_inputs.S64 32)
    (h : Cert.Pre_finite_inputs.fn (F := F) x idx = fun _ => 1#1) : Cert.Proof.Spec.Distinct idx := by
  intro c c' hcc
  have hw : idx (ix1 c) = idx (ix1 c') := BitVec.eq_of_toNat_eq hcc
  have hcard := count_at x idx h c
  have hc : c ∈ Finset.univ.filter (fun q : Fin 64 => idx (ix1 c) = idx (ix1 q)) :=
    Finset.mem_filter.2 ⟨Finset.mem_univ _, rfl⟩
  have hc' : c' ∈ Finset.univ.filter (fun q : Fin 64 => idx (ix1 c) = idx (ix1 q)) :=
    Finset.mem_filter.2 ⟨Finset.mem_univ _, hw⟩
  exact Finset.card_le_one.1 (le_of_eq hcard) c hc c' hc'

end Cert.Proof.PreFacts
-- ==== Proof.LibScatterSet.lean ====
import Idealize.ShloMosaic.PureOps.ShapeOps

namespace Cert.Hand.LibScatterSet

open Idealize.ShloMosaic

section Fold
variable {ι κ α : Type}

/-- A fold of point updates none of which hits `i` leaves the start value at `i`. -/
theorem foldl_apply_of_miss (step : (κ → α) → ι → (κ → α)) (hit : ι → Prop) (i : κ)
    (hmiss : ∀ r n, ¬ hit n → step r n i = r i) :
    ∀ (L : List ι) (x : κ → α), (∀ n ∈ L, ¬ hit n) → L.foldl step x i = x i
  | [], _, _ => rfl
  | a :: L, x, h => by
    rw [List.foldl_cons, foldl_apply_of_miss step hit i hmiss L (step x a) (fun n hn => h n (List.mem_cons_of_mem a hn))]
    exact hmiss x a (h a List.mem_cons_self)

/-- If some step hits `i` and every step that does writes `w`, the fold ends with `w` at `i`. -/
theorem foldl_apply_of_hit (step : (κ → α) → ι → (κ → α)) (hit : ι → Prop) (v : ι → α) (i : κ) (w : α)
    (hmiss : ∀ r n, ¬ hit n → step r n i = r i) (hhit : ∀ r n, hit n → step r n i = v n)
    (hw : ∀ n, hit n → v n = w) :
    ∀ (L : List ι) (x : κ → α), (∃ n ∈ L, hit n) → L.foldl step x i = w
  | [], _, h => by obtain ⟨n, hn, _⟩ := h; cases hn
  | a :: L, x, h => by
    rw [List.foldl_cons]
    by_cases hL : ∃ n ∈ L, hit n
    · exact foldl_apply_of_hit step hit v i w hmiss hhit hw L (step x a) hL
    · rw [foldl_apply_of_miss step hit i hmiss L (step x a) (fun n hn hh => hL ⟨n, hn, hh⟩)]
      obtain ⟨n, hn, hh⟩ := h
      rcases List.mem_cons.1 hn with rfl | hn'
      · rw [hhit x n hh, hw n hh]
      · exact absurd ⟨n, hn', hh⟩ hL

end Fold

section Scatter
variable {s si u : Shape} {α : Type} {w : Nat}

private theorem step_miss (d : ScatterDims s si u) (idx : IVec si w) (upd : u.Idx → α) (i : s.Idx)
    (r : s.Idx → α) (n : Fin u.numel) (h : ¬ d.resultIdx? (u.rowMajor.symm n) idx = some i) :
    (match d.resultIdx? (u.rowMajor.symm n) idx with
      | some i₀ => fun i' => if i' = i₀ then (fun _ b => b) (r i₀) (upd (u.rowMajor.symm n)) else r i'
      | none => r) i = r i := by
  cases hr : d.resultIdx? (u.rowMajor.symm n) idx with
  | none => rfl
  | some i₀ =>
    rw [hr] at h
    show (if i = i₀ then _ else r i) = r i
    rw [if_neg (fun e => h (congrArg some e.symm))]

private theorem step_hit (d : ScatterDims s si u) (idx : IVec si w) (upd : u.Idx → α) (i : s.Idx)
    (r : s.Idx → α) (n : Fin u.numel) (h : d.resultIdx? (u.rowMajor.symm n) idx = some i) :
    (match d.resultIdx? (u.rowMajor.symm n) idx with
      | some i₀ => fun i' => if i' = i₀ then (fun _ b => b) (r i₀) (upd (u.rowMajor.symm n)) else r i'
      | none => r) i = upd (u.rowMajor.symm n) := by
  rw [h]
  show (if i = i then _ else r i) = _
  rw [if_pos rfl]

theorem scatter_set_apply_of_miss (d : ScatterDims s si u) (x : s.Idx → α) (idx : IVec si w) (upd : u.Idx → α)
    (i : s.Idx) (h : ∀ j, d.resultIdx? j idx ≠ some i) :
    Host.scatter d (fun _ b => b) x idx upd i = x i := by
  unfold Host.scatter
  exact foldl_apply_of_miss _ (fun n => d.resultIdx? (u.rowMajor.symm n) idx = some i) i
    (fun r n hn => step_miss d idx upd i r n hn) (List.finRange u.numel) x (fun n _ => h _)

theorem scatter_set_apply_of_hit (d : ScatterDims s si u) (x : s.Idx → α) (idx : IVec si w) (upd : u.Idx → α)
    (i : s.Idx) (j : u.Idx) (hj : d.resultIdx? j idx = some i)
    (huniq : ∀ j', d.resultIdx? j' idx = some i → upd j' = upd j) :
    Host.scatter d (fun _ b => b) x idx upd i = upd j := by
  unfold Host.scatter
  exact foldl_apply_of_hit _ (fun n => d.resultIdx? (u.rowMajor.symm n) idx = some i)
    (fun n => upd (u.rowMajor.symm n)) i (upd j)
    (fun r n hn => step_miss d idx upd i r n hn) (fun r n hn => step_hit d idx upd i r n hn)
    (fun n hn => huniq _ hn) (List.finRange u.numel) x
    ⟨u.rowMajor j, List.mem_finRange _, by show d.resultIdx? (u.rowMajor.symm (u.rowMajor j)) idx = some i; rw [Equiv.symm_apply_apply]; exact hj⟩

end Scatter

end Cert.Hand.LibScatterSet
-- ==== Proof.RefValue.lean ====
import proofs.«424837_j50560355008971_3_alg».proof.Proof.Gen.ReferenceIdeal.Run
import proofs.«424837_j50560355008971_3_alg».proof.Proof.Gen.ReferenceIdeal.Read
import proofs.«424837_j50560355008971_3_alg».proof.Proof.Spec
import proofs.«424837_j50560355008971_3_alg».proof.Proof.LibScatterSet
import Idealize.ShloMosaic.Lib.StableHlo.Predicate

noncomputable section

namespace Cert.Proof.RefValue

open Cert.ReferenceIdeal Cert.ReferenceIdeal.Facts₀ Cert.ReferenceIdeal.Facts Idealize.ShloMosaic Idealize.ShloMosaic.ValueIdx

variable [Cert.ReferenceIdeal.Facts]

abbrev dd : ScatterDims S512x110x640 S64x1 S512x64x640 := scatter_S512x110x640_S64x1_S512x64x640_02_1_1_1

theorem start0 (j : S512x64x640.Idx) (iv : IVec S64x1 32) : dd.start j iv 0 = 0 := rfl

theorem start2 (j : S512x64x640.Idx) (iv : IVec S64x1 32) : dd.start j iv 2 = 0 := rfl

theorem window1 (j : S512x64x640.Idx) : dd.window j 1 = 0 := rfl

theorem window0 (b : Fin 512) (c : Fin 64) (t : Fin 640) : dd.window (ix3 b c t) 0 = b.val := rfl

theorem window2 (b : Fin 512) (c : Fin 64) (t : Fin 640) : dd.window (ix3 b c t) 2 = t.val := rfl

theorem siIdx_eq (b : Fin 512) (c : Fin 64) (t : Fin 640) (k : Fin dd.scatterDimsToOperandDims.length) :
    dd.siIdx (ix3 b c t) k = ix2 c 0 := by
  funext a
  refine Fin.ext ?_
  match a with
  | ⟨0, _⟩ => rfl
  | ⟨1, _⟩ =>
    have hk : k.val = 0 := by have := k.isLt; have hl : dd.scatterDimsToOperandDims.length = 1 := rfl; omega
    show k.val = 0
    exact hk

theorem start1 (b : Fin 512) (c : Fin 64) (t : Fin 640) (iv : IVec S64x1 32) :
    dd.start (ix3 b c t) iv 1 = (iv (ix2 c 0)).toInt := by
  unfold ScatterDims.start
  rw [dif_pos (show (1 : Fin S512x110x640.rank) ∈ dd.scatterDimsToOperandDims from List.mem_singleton.mpr rfl)]
  rw [siIdx_eq]

theorem fin3_cases : ∀ a : Fin 3, a = 0 ∨ a = 1 ∨ a = 2 := by decide

theorem resultIdx_iff (b' : Fin 512) (c : Fin 64) (t' : Fin 640) (iv : IVec S64x1 32) (b : Fin 512) (r : Fin 110) (t : Fin 640) :
    dd.resultIdx? (ix3 b' c t') iv = some (ix3 b r t) ↔ (b' = b ∧ (iv (ix2 c 0)).toInt = (r.val : Int) ∧ t' = t) := by
  unfold ScatterDims.resultIdx?
  constructor
  · intro h
    split at h
    · rename_i hall
      have hf := Option.some.inj h
      have h0 : (dd.start (ix3 b' c t') iv 0 + (dd.window (ix3 b' c t') 0 : Nat)).toNat = b.val := congrArg (fun f => (f 0).val) hf
      have h1 : (dd.start (ix3 b' c t') iv 1 + (dd.window (ix3 b' c t') 1 : Nat)).toNat = r.val := congrArg (fun f => (f 1).val) hf
      have h2 : (dd.start (ix3 b' c t') iv 2 + (dd.window (ix3 b' c t') 2 : Nat)).toNat = t.val := congrArg (fun f => (f 2).val) hf
      have hp := (hall 1).1
      rw [start0, window0] at h0
      rw [start2, window2] at h2
      rw [start1, window1] at h1 hp
      refine ⟨Fin.ext (by omega), by omega, Fin.ext (by omega)⟩
    · exact absurd h (by simp)
  · rintro ⟨rfl, h1, rfl⟩
    have hall : ∀ a, 0 ≤ dd.start (ix3 b' c t') iv a + (dd.window (ix3 b' c t') a : Nat) ∧ dd.start (ix3 b' c t') iv a + (dd.window (ix3 b' c t') a : Nat) < (S512x110x640.size a : Nat) := by
      intro a
      rcases fin3_cases a with rfl | rfl | rfl
      · rw [start0, window0]; have := b'.isLt; show _ ∧ _ < ((512 : Nat) : Int); omega
      · rw [start1, window1, h1]; have := r.isLt; show _ ∧ _ < ((110 : Nat) : Int); omega
      · rw [start2, window2]; have := t'.isLt; show _ ∧ _ < ((640 : Nat) : Int); omega
    rw [dif_pos hall]
    congr 1
    funext a
    refine Fin.ext ?_
    rcases fin3_cases a with rfl | rfl | rfl
    · show (dd.start (ix3 b' c t') iv 0 + (dd.window (ix3 b' c t') 0 : Nat)).toNat = b'.val
      rw [start0, window0]; omega
    · show (dd.start (ix3 b' c t') iv 1 + (dd.window (ix3 b' c t') 1 : Nat)).toNat = r.val
      rw [start1, window1, h1]; omega
    · show (dd.start (ix3 b' c t') iv 2 + (dd.window (ix3 b' c t') 2 : Nat)).toNat = t'.val
      rw [start2, window2]; omega

theorem nidx_apply (idx : (⟨S64, .i32⟩ : BufTy).Contents (Elt Ideal)) (hr : Cert.Proof.Spec.InRange idx) (c : Fin 64) :
    Cert.ReferenceIdeal.Read.val_main_v6 (F := Ideal) idx (ix2 c 0) = idx (ix1 c) := by
  have hi : Cert.ReferenceIdeal.Read.idx_main_v6 (ix2 c (0 : Fin 1)) = ix1 c := by
    funext a; match a with | ⟨0, _⟩ => rfl
  have hlt : (idx (ix1 c)).toNat < 110 := hr c
  rw [Cert.ReferenceIdeal.Read.val_main_v6_apply, hi, Cert.ReferenceIdeal.Read.val_main_v5_apply,
    Cert.ReferenceIdeal.Read.val_main_v2_apply, Cert.ReferenceIdeal.Read.val_main_v1_apply,
    Cert.ReferenceIdeal.Read.val_main_c_apply]
  have hc : IntOp.cmpi .slt (idx (ix1 c)) 0#32 = 0#1 := by
    apply eq_zero_of_ne_one
    intro h
    have h' := (StableHlo.Predicate.slt_iff_toNat (a := idx (ix1 c)) (b := 0#32) (by omega) (by decide)).1 h
    simp at h'
  rw [hc, select_zero]

theorem lands_iff (idx : (⟨S64, .i32⟩ : BufTy).Contents (Elt Ideal)) (hr : Cert.Proof.Spec.InRange idx)
    (b' : Fin 512) (c : Fin 64) (t' : Fin 640) (b : Fin 512) (r : Fin 110) (t : Fin 640) :
    dd.resultIdx? (ix3 b' c t') (Cert.ReferenceIdeal.Read.val_main_v6 (F := Ideal) idx) = some (ix3 b r t)
      ↔ (b' = b ∧ Cert.Proof.Spec.rowOf idx c = r.val ∧ t' = t) := by
  have hlt : (idx (ix1 c)).toNat < 110 := hr c
  rw [resultIdx_iff, nidx_apply idx hr c, StableHlo.Predicate.toInt_eq_toNat_of_lt (by omega)]
  constructor
  · rintro ⟨h0, h1, h2⟩; exact ⟨h0, by exact_mod_cast h1, h2⟩
  · rintro ⟨h0, h1, h2⟩; exact ⟨h0, by exact_mod_cast h1, h2⟩

/-- Read at one index, the scatter into the zero grid is `scat`: an update lands on a row exactly when its channel is sent there, and with the table injective all updates landing on one index carry one value. -/
theorem scatter_eq (x : (⟨S512x64x640, .f32⟩ : BufTy).Contents (Elt Ideal)) (idx : (⟨S64, .i32⟩ : BufTy).Contents (Elt Ideal))
    (hr : Cert.Proof.Spec.InRange idx) (hd : Cert.Proof.Spec.Distinct idx) :
    Host.scatter scatter_S512x110x640_S64x1_S512x64x640_02_1_1_1 (fun _ b => b)
        (broadcastInDim S512x110x640 ![] bcast_S_S512x110x640 (constant (F := Ideal) S_ .f32 0x00000000#32))
        (broadcastInDim S64x1 ![0] bcast_S64_S64x1_0 (select (cmpi .slt idx (broadcastInDim S64 ![] bcast_S_S64 (constantI S_ 32 0#32))) (addi idx (broadcastInDim S64 ![] bcast_S_S64 (constantI S_ 32 110#32))) idx)) x
      = Cert.Proof.Spec.scat 512 (FloatOps.ofBits (F := Ideal) .f32 0x00000000#32) x idx := by
  show Host.scatter dd (fun _ b => b) (Cert.ReferenceIdeal.Read.val_main_v0 (F := Ideal))
    (Cert.ReferenceIdeal.Read.val_main_v6 (F := Ideal) idx) x = _
  funext j
  obtain ⟨b, r, t, rfl⟩ : ∃ (b : Fin 512) (r : Fin 110) (t : Fin 640), j = ix3 b r t := ⟨j 0, j 1, j 2, eq_ix3 j⟩
  by_cases h : ∃ c : Fin 64, Cert.Proof.Spec.rowOf idx c = r.val
  · obtain ⟨c, hc⟩ := h
    rw [Cert.Hand.LibScatterSet.scatter_set_apply_of_hit dd _ _ x (ix3 b r t) (ix3 b c t)
      ((lands_iff idx hr b c t b r t).2 ⟨rfl, hc, rfl⟩)
      (by
        intro j' hj'
        obtain ⟨b', c', t', rfl⟩ : ∃ (b' : Fin 512) (c' : Fin 64) (t' : Fin 640), j' = ix3 b' c' t' := ⟨j' 0, j' 1, j' 2, eq_ix3 j'⟩
        obtain ⟨rfl, hc', rfl⟩ := (lands_iff idx hr b' c' t' b r t).1 hj'
        have hcc : c' = c := hd c' c (hc'.trans hc.symm)
        rw [hcc]),
      Cert.Proof.Spec.scat_hit 512 _ x idx hd b r t c hc]
  · rw [Cert.Hand.LibScatterSet.scatter_set_apply_of_miss dd _ _ x (ix3 b r t)
      (by
        intro j' hj'
        obtain ⟨b', c', t', rfl⟩ : ∃ (b' : Fin 512) (c' : Fin 64) (t' : Fin 640), j' = ix3 b' c' t' := ⟨j' 0, j' 1, j' 2, eq_ix3 j'⟩
        exact h ⟨c', ((lands_iff idx hr b' c' t' b r t).1 hj').2.1⟩),
      Cert.Proof.Spec.scat_miss 512 _ x idx b r t (fun c hc => h ⟨c, hc⟩),
      Cert.ReferenceIdeal.Read.val_main_v0_apply, Cert.ReferenceIdeal.Read.val_main_cst_apply]

end Cert.Proof.RefValue

end
-- ==== Proof.KIBase.lean ====
import proofs.«424837_j50560355008971_3_alg».proof.Proof.Gen.KernelIdeal.Skeleton
import proofs.«424837_j50560355008971_3_alg».proof.Proof.Gen.KernelIdeal.Launch
import proofs.«424837_j50560355008971_3_alg».proof.Proof.Spec
import Idealize.ShloMosaic.Lib.Tactic
import Idealize.ShloMosaic.Lib.Pipeline.Kit

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

abbrev UU (nD : Nat) (τ : Topo) : Type := UR sig nD τ × Counters

local notation "𝕄" => MT nD τ sig Unit (Elt F) ℕ (UU nD τ) ℕ

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

abbrev osem : Fin 64 → SemLoc sig := fun k => .dma ⟨k.val + 4, by show k.val + 4 < 68; omega⟩

abbrev sems0 (c : Dev nD) : sProp 𝕄 :=
  Pipeline.ownSems0 (Ix := Unit) (Name := ℕ) (U := UU nD τ) (Lvl := ℕ) (Val := Elt F) (τ := τ) osem c

abbrev zeroF : Elt F .f32 := (Scalar.ofBits .f32 0x00000000#32 : F .f32)

end Cert.Proof.KI

end
-- ==== Proof.LibRowWindow.lean ====
import Idealize.ShloMosaic.Lib.Writes
import Idealize.ShloMosaic.Lib.ValueIdx

namespace Cert.Hand.LibRowWindow

open Idealize.ShloMosaic
open Idealize.ShloMosaic.ValueIdx

variable {nD : Nat} {τ : Topo} {sig : RefSig} {κ : Kind} {sp : Space} {e : EltTy} {B R T : Nat}

abbrev rowWin (M : Memref sig κ sp ⟨3, ![B, R, T]⟩ e) (o : Fin 3 → Nat)
    (h : ∀ a, o a + (⟨3, ![B, 1, T]⟩ : Shape).size a ≤ (⟨3, ![B, R, T]⟩ : Shape).size a)
    (hsq : (⟨3, ![B, 1, T]⟩ : Shape).Squeezes ⟨2, ![B, T]⟩) : Memref sig κ sp ⟨2, ![B, T]⟩ e :=
  (M.slice (Rect.unit (s := ⟨3, ![B, R, T]⟩) o (⟨3, ![B, 1, T]⟩ : Shape).size h) (fun _ => rfl)).squeeze ⟨2, ![B, T]⟩ hsq

theorem reshapeEquiv_drop_mid (hn : (⟨2, ![B, T]⟩ : Shape).numel = (⟨3, ![B, 1, T]⟩ : Shape).numel)
    (b : Fin B) (t : Fin T) :
    Shape.reshapeEquiv hn (ix2 b t) = ix3 b (⟨0, Nat.one_pos⟩ : Fin 1) t := by
  apply Shape.reshapeEquiv_eq_of_rowMajor
  rw [Shape.rowMajor_val_three, Shape.rowMajor_val_two]
  show (b.val * 1 + 0) * T + t.val = b.val * T + t.val
  rw [Nat.mul_one, Nat.add_zero]

theorem rect_emb_row {r : Nat} (hr : r < R)
    (h : ∀ a, (![0, r, 0] : Fin 3 → Nat) a + (⟨3, ![B, 1, T]⟩ : Shape).size a ≤ (⟨3, ![B, R, T]⟩ : Shape).size a)
    (b : Fin B) (t : Fin T) :
    (Rect.unit (s := ⟨3, ![B, R, T]⟩) ![0, r, 0] (⟨3, ![B, 1, T]⟩ : Shape).size h).emb (ix3 b (⟨0, Nat.one_pos⟩ : Fin 1) t)
      = ix3 b ⟨r, hr⟩ t := by
  funext a
  match a with
  | ⟨0, _⟩ => apply Fin.ext; show 0 + 1 * b.val = b.val; omega
  | ⟨1, _⟩ => apply Fin.ext; show r + 1 * 0 = r; omega
  | ⟨2, _⟩ => apply Fin.ext; show 0 + 1 * t.val = t.val; omega

theorem rowWin_emb_ix (M : Memref sig κ sp ⟨3, ![B, R, T]⟩ e) {o : Fin 3 → Nat}
    (h : ∀ a, o a + (⟨3, ![B, 1, T]⟩ : Shape).size a ≤ (⟨3, ![B, R, T]⟩ : Shape).size a)
    (hsq : (⟨3, ![B, 1, T]⟩ : Shape).Squeezes ⟨2, ![B, T]⟩) {r : Nat} (hr : r < R) (ho : o = ![0, r, 0])
    (b : Fin B) (t : Fin T) :
    (rowWin M o h hsq).view.emb (ix2 b t) = M.view.emb (ix3 b ⟨r, hr⟩ t) := by
  subst ho
  show M.view.emb ((Rect.unit (s := ⟨3, ![B, R, T]⟩) ![0, r, 0] (⟨3, ![B, 1, T]⟩ : Shape).size h).emb
    (Shape.reshapeEquiv hsq.numel_eq (ix2 b t))) = _
  rw [reshapeEquiv_drop_mid, rect_emb_row hr]

theorem rowWin_read_ix (Val : EltTy → Type) (M : Memref sig κ sp ⟨3, ![B, R, T]⟩ e) {o : Fin 3 → Nat}
    (h : ∀ a, o a + (⟨3, ![B, 1, T]⟩ : Shape).size a ≤ (⟨3, ![B, R, T]⟩ : Shape).size a)
    (hsq : (⟨3, ![B, 1, T]⟩ : Shape).Squeezes ⟨2, ![B, T]⟩) {r : Nat} (hr : r < R)
    (ho : o = ![0, r, 0]) (f : M.view.ty.Contents Val) (b : Fin B) (t : Fin T) :
    (rowWin M o h hsq).view.read Val f (ix2 b t) = M.view.read Val f (ix3 b ⟨r, hr⟩ t) := by
  rw [View.read_apply, View.read_apply, rowWin_emb_ix M h hsq hr ho]

theorem rowWin_set_subset (M : Memref sig κ sp ⟨3, ![B, R, T]⟩ e) {o : Fin 3 → Nat}
    (h : ∀ a, o a + (⟨3, ![B, 1, T]⟩ : Shape).size a ≤ (⟨3, ![B, R, T]⟩ : Shape).size a)
    (hsq : (⟨3, ![B, 1, T]⟩ : Shape).Squeezes ⟨2, ![B, T]⟩) :
    (rowWin M o h hsq).view.set ⊆ M.view.set := by
  rw [View.set_reshape]
  exact View.set_slice_subset _ _

/-- An element lies in row `r`'s window exactly when its middle coordinate is `r`. -/
theorem mem_rowWin_set (M : Memref sig κ sp ⟨3, ![B, R, T]⟩ e) {o : Fin 3 → Nat}
    (h : ∀ a, o a + (⟨3, ![B, 1, T]⟩ : Shape).size a ≤ (⟨3, ![B, R, T]⟩ : Shape).size a)
    (hsq : (⟨3, ![B, 1, T]⟩ : Shape).Squeezes ⟨2, ![B, T]⟩) {r : Nat} (ho : o = ![0, r, 0])
    (j : (⟨3, ![B, R, T]⟩ : Shape).Idx) :
    M.view.emb j ∈ (rowWin M o h hsq).view.set ↔ (j 1).val = r := by
  subst ho
  rw [View.set_reshape, View.set_slice, Finset.mem_map', Rect.mem_set_unit]
  have h0 : (j 0).val < B := (j 0).isLt
  have h2 : (j 2).val < T := (j 2).isLt
  constructor
  · intro H
    have H1 : r ≤ (j 1).val ∧ (j 1).val < r + 1 := H 1
    omega
  · intro H a
    match a with
    | ⟨0, _⟩ => show 0 ≤ (j 0).val ∧ (j 0).val < 0 + B; omega
    | ⟨1, _⟩ => show r ≤ (j 1).val ∧ (j 1).val < r + 1; omega
    | ⟨2, _⟩ => show 0 ≤ (j 2).val ∧ (j 2).val < 0 + T; omega

theorem mem_rowWin_set_iff (M : Memref sig κ sp ⟨3, ![B, R, T]⟩ e) {o : Fin 3 → Nat}
    (h : ∀ a, o a + (⟨3, ![B, 1, T]⟩ : Shape).size a ≤ (⟨3, ![B, R, T]⟩ : Shape).size a)
    (hsq : (⟨3, ![B, 1, T]⟩ : Shape).Squeezes ⟨2, ![B, T]⟩) {r : Nat} (ho : o = ![0, r, 0])
    (i : M.view.ty.Idx) :
    i ∈ (rowWin M o h hsq).view.set ↔ ∃ j : (⟨3, ![B, R, T]⟩ : Shape).Idx, (j 1).val = r ∧ M.view.emb j = i := by
  constructor
  · intro hi
    obtain ⟨j, -, rfl⟩ := Finset.mem_map.mp (rowWin_set_subset M h hsq hi)
    exact ⟨j, (mem_rowWin_set M h hsq ho j).mp hi, rfl⟩
  · rintro ⟨j, hj, rfl⟩
    exact (mem_rowWin_set M h hsq ho j).mpr hj

/-- Windows on different rows share no element: the middle coordinate tells them apart. -/
theorem rowWin_disjoint (M : Memref sig κ sp ⟨3, ![B, R, T]⟩ e) {o : Fin 3 → Nat}
    (h : ∀ a, o a + (⟨3, ![B, 1, T]⟩ : Shape).size a ≤ (⟨3, ![B, R, T]⟩ : Shape).size a)
    (hsq : (⟨3, ![B, 1, T]⟩ : Shape).Squeezes ⟨2, ![B, T]⟩) {o' : Fin 3 → Nat}
    (h' : ∀ a, o' a + (⟨3, ![B, 1, T]⟩ : Shape).size a ≤ (⟨3, ![B, R, T]⟩ : Shape).size a)
    {r r' : Nat} (ho : o = ![0, r, 0]) (ho' : o' = ![0, r', 0]) (hne : r ≠ r') :
    Disjoint (rowWin M o h hsq).view.set (rowWin M o' h' hsq).view.set := by
  rw [Finset.disjoint_left]
  intro i hi hi'
  obtain ⟨j, hj, rfl⟩ := (mem_rowWin_set_iff M h hsq ho i).mp hi
  exact hne (hj.symm.trans ((mem_rowWin_set M h' hsq ho' j).mp hi'))

theorem rowWin_writes_read (Val : EltTy → Type) (M : Memref sig κ sp ⟨3, ![B, R, T]⟩ e) {o : Fin 3 → Nat}
    (h : ∀ a, o a + (⟨3, ![B, 1, T]⟩ : Shape).size a ≤ (⟨3, ![B, R, T]⟩ : Shape).size a)
    (hsq : (⟨3, ![B, 1, T]⟩ : Shape).Squeezes ⟨2, ![B, T]⟩)
    (Z : M.view.ty.Contents Val) (p : (⟨2, ![B, T]⟩ : Shape).Idx → Val e) (y : (⟨2, ![B, T]⟩ : Shape).Idx) :
    (rowWin M o h hsq).view.read Val ((rowWin M o h hsq).view.writes Val Z [⟨Rect.whole ⟨2, ![B, T]⟩, p⟩]) y = p y := by
  have H := View.read_writes_cons_emb (rowWin M o h hsq).view Z (Rect.whole ⟨2, ![B, T]⟩) p [] y
  rwa [Rect.emb_whole_apply] at H

theorem rowWin_writes_of_not_mem (Val : EltTy → Type) (M : Memref sig κ sp ⟨3, ![B, R, T]⟩ e) {o : Fin 3 → Nat}
    (h : ∀ a, o a + (⟨3, ![B, 1, T]⟩ : Shape).size a ≤ (⟨3, ![B, R, T]⟩ : Shape).size a)
    (hsq : (⟨3, ![B, 1, T]⟩ : Shape).Squeezes ⟨2, ![B, T]⟩)
    (Z : M.view.ty.Contents Val) (p : (⟨2, ![B, T]⟩ : Shape).Idx → Val e) {i : M.view.ty.Idx}
    (hi : i ∉ (rowWin M o h hsq).view.set) :
    (rowWin M o h hsq).view.writes Val Z [⟨Rect.whole ⟨2, ![B, T]⟩, p⟩] i = Z i := by
  rw [View.writes_singleton]
  apply View.write_of_not_mem
  rw [View.setOn_univ, View.set_slice, Rect.set_whole]
  exact hi

theorem read_rowWin_writes_hit (Val : EltTy → Type) (M : Memref sig κ sp ⟨3, ![B, R, T]⟩ e) {o : Fin 3 → Nat}
    (h : ∀ a, o a + (⟨3, ![B, 1, T]⟩ : Shape).size a ≤ (⟨3, ![B, R, T]⟩ : Shape).size a)
    (hsq : (⟨3, ![B, 1, T]⟩ : Shape).Squeezes ⟨2, ![B, T]⟩) {r : Nat}
    (hr : r < R) (ho : o = ![0, r, 0]) (Z : M.view.ty.Contents Val) (p : (⟨2, ![B, T]⟩ : Shape).Idx → Val e)
    (b : Fin B) (t : Fin T) :
    M.view.read Val ((rowWin M o h hsq).view.writes Val Z [⟨Rect.whole ⟨2, ![B, T]⟩, p⟩]) (ix3 b ⟨r, hr⟩ t)
      = p (ix2 b t) := by
  rw [← rowWin_read_ix Val M h hsq hr ho]
  exact rowWin_writes_read Val M h hsq Z p (ix2 b t)

end Cert.Hand.LibRowWindow
-- ==== Proof.KIRows.lean ====
import proofs.«424837_j50560355008971_3_alg».proof.Proof.KIBase
import proofs.«424837_j50560355008971_3_alg».proof.Proof.LibRowWindow

noncomputable section

namespace Cert.Proof.KI

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Hand.LibRowWindow Cert.Proof.Spec

variable {F : FTy → Type} [FloatOps F] [Cert.KernelIdeal.Facts]

local notation "𝕄" => MT nD τ sig Unit (Elt F) ℕ (UU nD τ) ℕ

/-- The conjunction over `Fin 64` as an explicit list of its sixty-four members. -/
theorem bigSep_F64 {M : Type} [URA M] (Φ : Fin 64 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45 ∗ Φ 46 ∗ Φ 47 ∗ Φ 48 ∗ Φ 49 ∗ Φ 50 ∗ Φ 51 ∗ Φ 52 ∗ Φ 53 ∗ Φ 54 ∗ Φ 55 ∗ Φ 56 ∗ Φ 57 ∗ Φ 58 ∗ Φ 59 ∗ Φ 60 ∗ Φ 61 ∗ Φ 62 ∗ Φ 63) :=
  bigSep_univ_eq_bigSepL [(0 : Fin 64), 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide) Φ

theorem inbCell (k : Fin 64) : ∀ a, (![k.val] : Fin 1 → Nat) a + S1.size a ≤ S64.size a := by
  intro a
  have hk := k.isLt
  match a with
  | ⟨0, _⟩ => show k.val + 1 ≤ 64; omega

/-- The table's word as the body loads it: the one-word load at cell `i`. -/
abbrev ldw (c : Dev nD) (f1 : Bf (F := F) c (Memref.whole main_arg1)) (i : Fin 1 → Nat)
    (h : ∀ a, i a + S1.size a ≤ S64.size a) : Elt F .i32 :=
  View.readAt (Elt F) (Memref.whole main_arg1).view (Rect.unit (s := S64) i S1.size h).toLoadRect f1
    (Shape.Idx.first (numel1_S1.symm ▸ Nat.one_pos))

/-- A one-word load at cell `i` reads the table's entry `i 0`. -/
theorem ldw_eq (c : Dev nD) (f1 : Bf (F := F) c (Memref.whole main_arg1)) (i : Fin 1 → Nat)
    (h : ∀ a, i a + S1.size a ≤ S64.size a) (hk : i 0 < 64) : ldw c f1 i h = f1 (ix1 ⟨i 0, hk⟩) := by
  unfold ldw
  rw [View.readAt_apply, View.read_apply]
  refine congrArg f1 ?_
  funext a
  match a with
  | ⟨0, _⟩ => exact Fin.ext (by simp [LoadRect.idx, Rect.toLoadRect, Rect.unit, Shape.Idx.first])

/-- Whatever cell a load inside the table reads, in range its word is a row of the block. -/
theorem ldw_lt (c : Dev nD) (f1 : Bf (F := F) c (Memref.whole main_arg1)) (hr : InRange f1) (i : Fin 1 → Nat)
    (h : ∀ a, i a + S1.size a ≤ S64.size a) : (ldw c f1 i h).toNat < 110 := by
  have hk : i 0 < 64 := by have h0 : i 0 + 1 ≤ 64 := h 0; omega
  rw [ldw_eq c f1 i h hk]; exact hr _

abbrev wd (c : Dev nD) (f1 : Bf (F := F) c (Memref.whole main_arg1)) (k : Fin 64) : Elt F .i32 :=
  ldw c f1 ![k.val] (inbCell k)

theorem wd_eq (c : Dev nD) (f1 : Bf (F := F) c (Memref.whole main_arg1)) (k : Fin 64) : wd c f1 k = f1 (ix1 k) :=
  ldw_eq c f1 _ _ k.isLt

theorem wd_lt (c : Dev nD) (f1 : Bf (F := F) c (Memref.whole main_arg1)) (hr : InRange f1) (k : Fin 64) :
    (wd c f1 k).toNat < 110 :=
  ldw_lt c f1 hr _ _

theorem wd_inj (c : Dev nD) (f1 : Bf (F := F) c (Memref.whole main_arg1)) (hd : Distinct f1) (k k' : Fin 64)
    (h : (wd c f1 k).toNat = (wd c f1 k').toNat) : k = k' := by
  rw [wd_eq, wd_eq] at h; exact hd k k' h

theorem rowInb (w : BitVec 32) (h : w.toNat < 110) :
    ∀ a, (![0, w.toNat, 0] : Fin 3 → Nat) a + S32x1x640.size a ≤ S32x110x640.size a := by
  intro a
  match a with
  | ⟨0, _⟩ => show 0 + 32 ≤ 32; omega
  | ⟨1, _⟩ => show w.toNat + 1 ≤ 110; omega
  | ⟨2, _⟩ => show 0 + 640 ≤ 640; omega

/-- Both rows the body cuts at a word below 110 lie inside the block. -/
theorem rowInb2 (w : BitVec 32) (h : w.toNat < 110) :
    (∀ a, (![0, w.toNat, 0] : Fin 3 → Nat) a + S32x1x640.size a ≤ S32x110x640.size a) ∧
    (∀ a, (![0, w.toNat, 0] : Fin 3 → Nat) a + S32x1x640.size a ≤ S32x110x640.size a) :=
  ⟨rowInb w h, rowInb w h⟩

/-- A row window held by its own elements. -/
abbrev own (c : Dev nD) (W : Memref sig .tc .vmem S32x640 .f32) (f : Bf (F := F) c W) : sProp 𝕄 :=
  W.view.loc (c : Thread nD τ) ↦[W.view.set]{fullShare} f

/-- A destination row in the body's spelling: cut at the offsets `off` of the word loaded from cell `i`. -/
abbrev dwin (c : Dev nD) (M3 : Memref sig .tc .vmem S32x110x640 .f32) (f1 : Bf (F := F) c (Memref.whole main_arg1)) (hr : InRange f1)
    (off : BitVec 32 → Fin 3 → Nat) (ho : ∀ w, off w = ![0, w.toNat, 0]) (i : Fin 1 → Nat) (h : ∀ a, i a + S1.size a ≤ S64.size a) :
    Memref sig .tc .vmem S32x640 .f32 :=
  rowWin M3 (off (ldw c f1 i h)) (by rw [ho]; exact rowInb _ (ldw_lt c f1 hr i h)) squeezes_S32x1x640_S32x640

/-- A source row in the body's spelling. -/
abbrev srow (M2 : Memref sig .tc .vmem S32x64x640 .f32) (o : Fin 3 → Nat) (h : ∀ a, o a + S32x1x640.size a ≤ S32x64x640.size a) :
    Memref sig .tc .vmem S32x640 .f32 :=
  rowWin M2 o h squeezes_S32x1x640_S32x640

/-- One of the kernel's counters at zero. -/
abbrev sem0 (c : Dev nD) (n : DmaSem sig) : sProp 𝕄 := semVal ((c : Thread nD τ), SemLoc.dma n) 0

/-- Marks the part of a block no channel is sent to, so that the copies leave it alone. -/
def stash (P : sProp 𝕄) : sProp 𝕄 := P
theorem stash_intro (P : sProp 𝕄) : P ⊢ stash (F := F) P := by unfold stash; exact .rfl
theorem stash_elim (P : sProp 𝕄) : stash (F := F) P ⊢ P := by unfold stash; exact .rfl
attribute [irreducible] stash

abbrev win (c : Dev nD) (M3 : Memref sig .tc .vmem S32x110x640 .f32) (f1 : Bf (F := F) c (Memref.whole main_arg1)) (hr : InRange f1)
    (k : Fin 64) : Memref sig .tc .vmem S32x640 .f32 :=
  rowWin M3 ![0, (wd c f1 k).toNat, 0] (rowInb _ (wd_lt c f1 hr k)) squeezes_S32x1x640_S32x640

/-- Distinct channels have distinct words, hence distinct rows. -/
theorem win_disjoint (c : Dev nD) (M3 : Memref sig .tc .vmem S32x110x640 .f32) (f1 : Bf (F := F) c (Memref.whole main_arg1))
    (hr : InRange f1) (hd : Distinct f1) (k k' : Fin 64) (hne : k ≠ k') :
    Disjoint (win c M3 f1 hr k).view.set (win c M3 f1 hr k').view.set :=
  rowWin_disjoint M3 _ _ _ rfl rfl (fun e => hne (wd_inj c f1 hd k k' e))

abbrev hitSet (c : Dev nD) (M3 : Memref sig .tc .vmem S32x110x640 .f32) (f1 : Bf (F := F) c (Memref.whole main_arg1)) (hr : InRange f1) :
    Finset (Idx (M3.view.loc (c : Thread nD τ))) :=
  Finset.univ.biUnion fun k : Fin 64 => (win c M3 f1 hr k).view.set

/-- The windows are pairwise disjoint, so the block held whole is the windows, each held by its own elements, and the rest. -/
theorem split_rows (c : Dev nD) (M3 : Memref sig .tc .vmem S32x110x640 .f32) (f1 : Bf (F := F) c (Memref.whole main_arg1))
    (hr : InRange f1) (hd : Distinct f1) (Z : Bf (F := F) c M3) :
    (M3.view.loc (c : Thread nD τ) ↦{fullShare} Z : sProp 𝕄) ⊢
      iprop((bigSep Finset.univ fun k : Fin 64 =>
          (win c M3 f1 hr k).view.loc (c : Thread nD τ) ↦[(win c M3 f1 hr k).view.set]{fullShare} Z)
        ∗ (M3.view.loc (c : Thread nD τ) ↦[Finset.univ \ hitSet c M3 f1 hr]{fullShare} Z)) := by
  have h1 := (pointsTo_split_subset (Ix := Unit) (Name := ℕ) (U := UU nD τ) (Lvl := ℕ) (ℓ := M3.view.loc (c : Thread nD τ)) (q := fullShare) (f := Z)
    (Finset.subset_univ (hitSet c M3 f1 hr))).1
  rw [show hitSet c M3 f1 hr = Finset.univ.biUnion fun k : Fin 64 => (win c M3 f1 hr k).view.set from rfl,
    pointsTo_biUnion Finset.univ _ (fun k _ k' _ hne => win_disjoint c M3 f1 hr hd k k' hne)] at h1
  exact h1

theorem srcInb (k : Fin 64) : ∀ a, (![0, k.val, 0] : Fin 3 → Nat) a + S32x1x640.size a ≤ S32x64x640.size a := by
  intro a
  have hk := k.isLt
  match a with
  | ⟨0, _⟩ => show 0 + 32 ≤ 32; omega
  | ⟨1, _⟩ => show k.val + 1 ≤ 64; omega
  | ⟨2, _⟩ => show 0 + 640 ≤ 640; omega

abbrev swin (M2 : Memref sig .tc .vmem S32x64x640 .f32) (k : Fin 64) : Memref sig .tc .vmem S32x640 .f32 :=
  rowWin M2 ![0, k.val, 0] (srcInb k) squeezes_S32x1x640_S32x640

theorem swin_disjoint (M2 : Memref sig .tc .vmem S32x64x640 .f32) (k k' : Fin 64) (hne : k ≠ k') :
    Disjoint (swin M2 k).view.set (swin M2 k').view.set :=
  rowWin_disjoint M2 _ _ _ rfl rfl (fun e => hne (Fin.ext e))

abbrev srcSet (c : Dev nD) (M2 : Memref sig .tc .vmem S32x64x640 .f32) : Finset (Idx (M2.view.loc (c : Thread nD τ))) :=
  Finset.univ.biUnion fun k : Fin 64 => (swin M2 k).view.set

theorem split_src (c : Dev nD) (M2 : Memref sig .tc .vmem S32x64x640 .f32) (f2 : Bf (F := F) c M2) :
    (M2.view.loc (c : Thread nD τ) ↦{fullShare} f2 : sProp 𝕄) ⊣⊢
      iprop((bigSep Finset.univ fun k : Fin 64 =>
          (swin M2 k).view.loc (c : Thread nD τ) ↦[(swin M2 k).view.set]{fullShare} f2)
        ∗ (M2.view.loc (c : Thread nD τ) ↦[Finset.univ \ srcSet c M2]{fullShare} f2)) := by
  have h1 := pointsTo_split_subset (Ix := Unit) (Name := ℕ) (U := UU nD τ) (Lvl := ℕ) (ℓ := M2.view.loc (c : Thread nD τ)) (q := fullShare) (f := f2)
    (Finset.subset_univ (srcSet c M2))
  rw [show srcSet c M2 = Finset.univ.biUnion fun k : Fin 64 => (swin M2 k).view.set from rfl,
    pointsTo_biUnion Finset.univ _ (fun k _ k' _ hne => swin_disjoint M2 k k' hne)] at h1
  exact h1

end Cert.Proof.KI

end
-- ==== Proof.KIChains.lean ====
import proofs.«424837_j50560355008971_3_alg».proof.Proof.KIRows

noncomputable section

namespace Cert.Proof.KI

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Hand.LibRowWindow Cert.Proof.Spec

variable {F : FTy → Type} [FloatOps F] [Cert.KernelIdeal.Facts]

local notation "𝕄" => MT nD τ sig Unit (Elt F) ℕ (UU nD τ) ℕ

theorem sems0_chain (c : Dev nD) :
    (sems0 (F := F) c : sProp 𝕄) = iprop(sem0 c 4 ∗ sem0 c 5 ∗ sem0 c 6 ∗ sem0 c 7 ∗ sem0 c 8 ∗ sem0 c 9 ∗ sem0 c 10 ∗ sem0 c 11 ∗ sem0 c 12 ∗ sem0 c 13 ∗ sem0 c 14 ∗ sem0 c 15 ∗ sem0 c 16 ∗ sem0 c 17 ∗ sem0 c 18 ∗ sem0 c 19 ∗ sem0 c 20 ∗ sem0 c 21 ∗ sem0 c 22 ∗ sem0 c 23 ∗ sem0 c 24 ∗ sem0 c 25 ∗ sem0 c 26 ∗ sem0 c 27 ∗ sem0 c 28 ∗ sem0 c 29 ∗ sem0 c 30 ∗ sem0 c 31 ∗ sem0 c 32 ∗ sem0 c 33 ∗ sem0 c 34 ∗ sem0 c 35 ∗ sem0 c 36 ∗ sem0 c 37 ∗ sem0 c 38 ∗ sem0 c 39 ∗ sem0 c 40 ∗ sem0 c 41 ∗ sem0 c 42 ∗ sem0 c 43 ∗ sem0 c 44 ∗ sem0 c 45 ∗ sem0 c 46 ∗ sem0 c 47 ∗ sem0 c 48 ∗ sem0 c 49 ∗ sem0 c 50 ∗ sem0 c 51 ∗ sem0 c 52 ∗ sem0 c 53 ∗ sem0 c 54 ∗ sem0 c 55 ∗ sem0 c 56 ∗ sem0 c 57 ∗ sem0 c 58 ∗ sem0 c 59 ∗ sem0 c 60 ∗ sem0 c 61 ∗ sem0 c 62 ∗ sem0 c 63 ∗ sem0 c 64 ∗ sem0 c 65 ∗ sem0 c 66 ∗ sem0 c 67) :=
  Pipeline.ownSems0_eq_of_list c osem [(0 : Fin 64), 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47, 48, 49, 50, 51, 52, 53, 54, 55, 56, 57, 58, 59, 60, 61, 62, 63] (by decide) (by decide)

set_option maxHeartbeats 8000000 in
theorem split_dst_chain (c : Dev nD) (M3 : Memref sig .tc .vmem S32x110x640 .f32) (f1 : Bf (F := F) c (Memref.whole main_arg1))
    (hr : InRange f1) (hd : Distinct f1) (Z : Bf (F := F) c M3) :
    (M3.view.loc (c : Thread nD τ) ↦{fullShare} Z : sProp 𝕄) ⊢
      iprop((own c (dwin c M3 f1 hr k0_off1 (fun _ => rfl) ![0] inb_S64_S1_0) Z
        ∗ own c (dwin c M3 f1 hr k0_off2 (fun _ => rfl) ![1] inb_S64_S1_1) Z
        ∗ own c (dwin c M3 f1 hr k0_off3 (fun _ => rfl) ![2] inb_S64_S1_2) Z
        ∗ own c (dwin c M3 f1 hr k0_off4 (fun _ => rfl) ![3] inb_S64_S1_3) Z
        ∗ own c (dwin c M3 f1 hr k0_off5 (fun _ => rfl) ![4] inb_S64_S1_4) Z
        ∗ own c (dwin c M3 f1 hr k0_off6 (fun _ => rfl) ![5] inb_S64_S1_5) Z
        ∗ own c (dwin c M3 f1 hr k0_off7 (fun _ => rfl) ![6] inb_S64_S1_6) Z
        ∗ own c (dwin c M3 f1 hr k0_off8 (fun _ => rfl) ![7] inb_S64_S1_7) Z
        ∗ own c (dwin c M3 f1 hr k0_off9 (fun _ => rfl) ![8] inb_S64_S1_8) Z
        ∗ own c (dwin c M3 f1 hr k0_off10 (fun _ => rfl) ![9] inb_S64_S1_9) Z
        ∗ own c (dwin c M3 f1 hr k0_off11 (fun _ => rfl) ![10] inb_S64_S1_10) Z
        ∗ own c (dwin c M3 f1 hr k0_off12 (fun _ => rfl) ![11] inb_S64_S1_11) Z
        ∗ own c (dwin c M3 f1 hr k0_off13 (fun _ => rfl) ![12] inb_S64_S1_12) Z
        ∗ own c (dwin c M3 f1 hr k0_off14 (fun _ => rfl) ![13] inb_S64_S1_13) Z
        ∗ own c (dwin c M3 f1 hr k0_off15 (fun _ => rfl) ![14] inb_S64_S1_14) Z
        ∗ own c (dwin c M3 f1 hr k0_off16 (fun _ => rfl) ![15] inb_S64_S1_15) Z
        ∗ own c (dwin c M3 f1 hr k0_off17 (fun _ => rfl) ![16] inb_S64_S1_16) Z
        ∗ own c (dwin c M3 f1 hr k0_off18 (fun _ => rfl) ![17] inb_S64_S1_17) Z
        ∗ own c (dwin c M3 f1 hr k0_off19 (fun _ => rfl) ![18] inb_S64_S1_18) Z
        ∗ own c (dwin c M3 f1 hr k0_off20 (fun _ => rfl) ![19] inb_S64_S1_19) Z
        ∗ own c (dwin c M3 f1 hr k0_off21 (fun _ => rfl) ![20] inb_S64_S1_20) Z
        ∗ own c (dwin c M3 f1 hr k0_off22 (fun _ => rfl) ![21] inb_S64_S1_21) Z
        ∗ own c (dwin c M3 f1 hr k0_off23 (fun _ => rfl) ![22] inb_S64_S1_22) Z
        ∗ own c (dwin c M3 f1 hr k0_off24 (fun _ => rfl) ![23] inb_S64_S1_23) Z
        ∗ own c (dwin c M3 f1 hr k0_off25 (fun _ => rfl) ![24] inb_S64_S1_24) Z
        ∗ own c (dwin c M3 f1 hr k0_off26 (fun _ => rfl) ![25] inb_S64_S1_25) Z
        ∗ own c (dwin c M3 f1 hr k0_off27 (fun _ => rfl) ![26] inb_S64_S1_26) Z
        ∗ own c (dwin c M3 f1 hr k0_off28 (fun _ => rfl) ![27] inb_S64_S1_27) Z
        ∗ own c (dwin c M3 f1 hr k0_off29 (fun _ => rfl) ![28] inb_S64_S1_28) Z
        ∗ own c (dwin c M3 f1 hr k0_off30 (fun _ => rfl) ![29] inb_S64_S1_29) Z
        ∗ own c (dwin c M3 f1 hr k0_off31 (fun _ => rfl) ![30] inb_S64_S1_30) Z
        ∗ own c (dwin c M3 f1 hr k0_off32 (fun _ => rfl) ![31] inb_S64_S1_31) Z
        ∗ own c (dwin c M3 f1 hr k0_off33 (fun _ => rfl) ![32] inb_S64_S1_32) Z
        ∗ own c (dwin c M3 f1 hr k0_off34 (fun _ => rfl) ![33] inb_S64_S1_33) Z
        ∗ own c (dwin c M3 f1 hr k0_off35 (fun _ => rfl) ![34] inb_S64_S1_34) Z
        ∗ own c (dwin c M3 f1 hr k0_off36 (fun _ => rfl) ![35] inb_S64_S1_35) Z
        ∗ own c (dwin c M3 f1 hr k0_off37 (fun _ => rfl) ![36] inb_S64_S1_36) Z
        ∗ own c (dwin c M3 f1 hr k0_off38 (fun _ => rfl) ![37] inb_S64_S1_37) Z
        ∗ own c (dwin c M3 f1 hr k0_off39 (fun _ => rfl) ![38] inb_S64_S1_38) Z
        ∗ own c (dwin c M3 f1 hr k0_off40 (fun _ => rfl) ![39] inb_S64_S1_39) Z
        ∗ own c (dwin c M3 f1 hr k0_off41 (fun _ => rfl) ![40] inb_S64_S1_40) Z
        ∗ own c (dwin c M3 f1 hr k0_off42 (fun _ => rfl) ![41] inb_S64_S1_41) Z
        ∗ own c (dwin c M3 f1 hr k0_off43 (fun _ => rfl) ![42] inb_S64_S1_42) Z
        ∗ own c (dwin c M3 f1 hr k0_off44 (fun _ => rfl) ![43] inb_S64_S1_43) Z
        ∗ own c (dwin c M3 f1 hr k0_off45 (fun _ => rfl) ![44] inb_S64_S1_44) Z
        ∗ own c (dwin c M3 f1 hr k0_off46 (fun _ => rfl) ![45] inb_S64_S1_45) Z
        ∗ own c (dwin c M3 f1 hr k0_off47 (fun _ => rfl) ![46] inb_S64_S1_46) Z
        ∗ own c (dwin c M3 f1 hr k0_off48 (fun _ => rfl) ![47] inb_S64_S1_47) Z
        ∗ own c (dwin c M3 f1 hr k0_off49 (fun _ => rfl) ![48] inb_S64_S1_48) Z
        ∗ own c (dwin c M3 f1 hr k0_off50 (fun _ => rfl) ![49] inb_S64_S1_49) Z
        ∗ own c (dwin c M3 f1 hr k0_off51 (fun _ => rfl) ![50] inb_S64_S1_50) Z
        ∗ own c (dwin c M3 f1 hr k0_off52 (fun _ => rfl) ![51] inb_S64_S1_51) Z
        ∗ own c (dwin c M3 f1 hr k0_off53 (fun _ => rfl) ![52] inb_S64_S1_52) Z
        ∗ own c (dwin c M3 f1 hr k0_off54 (fun _ => rfl) ![53] inb_S64_S1_53) Z
        ∗ own c (dwin c M3 f1 hr k0_off55 (fun _ => rfl) ![54] inb_S64_S1_54) Z
        ∗ own c (dwin c M3 f1 hr k0_off56 (fun _ => rfl) ![55] inb_S64_S1_55) Z
        ∗ own c (dwin c M3 f1 hr k0_off57 (fun _ => rfl) ![56] inb_S64_S1_56) Z
        ∗ own c (dwin c M3 f1 hr k0_off58 (fun _ => rfl) ![57] inb_S64_S1_57) Z
        ∗ own c (dwin c M3 f1 hr k0_off59 (fun _ => rfl) ![58] inb_S64_S1_58) Z
        ∗ own c (dwin c M3 f1 hr k0_off60 (fun _ => rfl) ![59] inb_S64_S1_59) Z
        ∗ own c (dwin c M3 f1 hr k0_off61 (fun _ => rfl) ![60] inb_S64_S1_60) Z
        ∗ own c (dwin c M3 f1 hr k0_off62 (fun _ => rfl) ![61] inb_S64_S1_61) Z
        ∗ own c (dwin c M3 f1 hr k0_off63 (fun _ => rfl) ![62] inb_S64_S1_62) Z
        ∗ own c (dwin c M3 f1 hr k0_off64 (fun _ => rfl) ![63] inb_S64_S1_63) Z)
        ∗ stash (F := F) (M3.view.loc (c : Thread nD τ) ↦[Finset.univ \ hitSet c M3 f1 hr]{fullShare} Z)) :=
  (split_rows c M3 f1 hr hd Z).trans (BIClass.sep_mono (Entails.of_eq (bigSep_F64 _)) (stash_intro _))

set_option maxHeartbeats 8000000 in
theorem join_dst_chain (c : Dev nD) (M3 : Memref sig .tc .vmem S32x110x640 .f32) (f1 : Bf (F := F) c (Memref.whole main_arg1))
    (hr : InRange f1) (Z : Bf (F := F) c M3) (P : Fin 64 → S32x640.Idx → Elt F .f32) :
    (iprop((own c (dwin c M3 f1 hr k0_off1 (fun _ => rfl) ![0] inb_S64_S1_0) ((dwin c M3 f1 hr k0_off1 (fun _ => rfl) ![0] inb_S64_S1_0).view.writes (Elt F) Z [⟨Rect.whole S32x640, P 0⟩])
        ∗ own c (dwin c M3 f1 hr k0_off2 (fun _ => rfl) ![1] inb_S64_S1_1) ((dwin c M3 f1 hr k0_off2 (fun _ => rfl) ![1] inb_S64_S1_1).view.writes (Elt F) Z [⟨Rect.whole S32x640, P 1⟩])
        ∗ own c (dwin c M3 f1 hr k0_off3 (fun _ => rfl) ![2] inb_S64_S1_2) ((dwin c M3 f1 hr k0_off3 (fun _ => rfl) ![2] inb_S64_S1_2).view.writes (Elt F) Z [⟨Rect.whole S32x640, P 2⟩])
        ∗ own c (dwin c M3 f1 hr k0_off4 (fun _ => rfl) ![3] inb_S64_S1_3) ((dwin c M3 f1 hr k0_off4 (fun _ => rfl) ![3] inb_S64_S1_3).view.writes (Elt F) Z [⟨Rect.whole S32x640, P 3⟩])
        ∗ own c (dwin c M3 f1 hr k0_off5 (fun _ => rfl) ![4] inb_S64_S1_4) ((dwin c M3 f1 hr k0_off5 (fun _ => rfl) ![4] inb_S64_S1_4).view.writes (Elt F) Z [⟨Rect.whole S32x640, P 4⟩])
        ∗ own c (dwin c M3 f1 hr k0_off6 (fun _ => rfl) ![5] inb_S64_S1_5) ((dwin c M3 f1 hr k0_off6 (fun _ => rfl) ![5] inb_S64_S1_5).view.writes (Elt F) Z [⟨Rect.whole S32x640, P 5⟩])
        ∗ own c (dwin c M3 f1 hr k0_off7 (fun _ => rfl) ![6] inb_S64_S1_6) ((dwin c M3 f1 hr k0_off7 (fun _ => rfl) ![6] inb_S64_S1_6).view.writes (Elt F) Z [⟨Rect.whole S32x640, P 6⟩])
        ∗ own c (dwin c M3 f1 hr k0_off8 (fun _ => rfl) ![7] inb_S64_S1_7) ((dwin c M3 f1 hr k0_off8 (fun _ => rfl) ![7] inb_S64_S1_7).view.writes (Elt F) Z [⟨Rect.whole S32x640, P 7⟩])
        ∗ own c (dwin c M3 f1 hr k0_off9 (fun _ => rfl) ![8] inb_S64_S1_8) ((dwin c M3 f1 hr k0_off9 (fun _ => rfl) ![8] inb_S64_S1_8).view.writes (Elt F) Z [⟨Rect.whole S32x640, P 8⟩])
        ∗ own c (dwin c M3 f1 hr k0_off10 (fun _ => rfl) ![9] inb_S64_S1_9) ((dwin c M3 f1 hr k0_off10 (fun _ => rfl) ![9] inb_S64_S1_9).view.writes (Elt F) Z [⟨Rect.whole S32x640, P 9⟩])
        ∗ own c (dwin c M3 f1 hr k0_off11 (fun _ => rfl) ![10] inb_S64_S1_10) ((dwin c M3 f1 hr k0_off11 (fun _ => rfl) ![10] inb_S64_S1_10).view.writes (Elt F) Z [⟨Rect.whole S32x640, P 10⟩])
        ∗ own c (dwin c M3 f1 hr k0_off12 (fun _ => rfl) ![11] inb_S64_S1_11) ((dwin c M3 f1 hr k0_off12 (fun _ => rfl) ![11] inb_S64_S1_11).view.writes (Elt F) Z [⟨Rect.whole S32x640, P 11⟩])
        ∗ own c (dwin c M3 f1 hr k0_off13 (fun _ => rfl) ![12] inb_S64_S1_12) ((dwin c M3 f1 hr k0_off13 (fun _ => rfl) ![12] inb_S64_S1_12).view.writes (Elt F) Z [⟨Rect.whole S32x640, P 12⟩])
        ∗ own c (dwin c M3 f1 hr k0_off14 (fun _ => rfl) ![13] inb_S64_S1_13) ((dwin c M3 f1 hr k0_off14 (fun _ => rfl) ![13] inb_S64_S1_13).view.writes (Elt F) Z [⟨Rect.whole S32x640, P 13⟩])
        ∗ own c (dwin c M3 f1 hr k0_off15 (fun _ => rfl) ![14] inb_S64_S1_14) ((dwin c M3 f1 hr k0_off15 (fun _ => rfl) ![14] inb_S64_S1_14).view.writes (Elt F) Z [⟨Rect.whole S32x640, P 14⟩])
        ∗ own c (dwin c M3 f1 hr k0_off16 (fun _ => rfl) ![15] inb_S64_S1_15) ((dwin c M3 f1 hr k0_off16 (fun _ => rfl) ![15] inb_S64_S1_15).view.writes (Elt F) Z [⟨Rect.whole S32x640, P 15⟩])
        ∗ own c (dwin c M3 f1 hr k0_off17 (fun _ => rfl) ![16] inb_S64_S1_16) ((dwin c M3 f1 hr k0_off17 (fun _ => rfl) ![16] inb_S64_S1_16).view.writes (Elt F) Z [⟨Rect.whole S32x640, P 16⟩])
        ∗ own c (dwin c M3 f1 hr k0_off18 (fun _ => rfl) ![17] inb_S64_S1_17) ((dwin c M3 f1 hr k0_off18 (fun _ => rfl) ![17] inb_S64_S1_17).view.writes (Elt F) Z [⟨Rect.whole S32x640, P 17⟩])
        ∗ own c (dwin c M3 f1 hr k0_off19 (fun _ => rfl) ![18] inb_S64_S1_18) ((dwin c M3 f1 hr k0_off19 (fun _ => rfl) ![18] inb_S64_S1_18).view.writes (Elt F) Z [⟨Rect.whole S32x640, P 18⟩])
        ∗ own c (dwin c M3 f1 hr k0_off20 (fun _ => rfl) ![19] inb_S64_S1_19) ((dwin c M3 f1 hr k0_off20 (fun _ => rfl) ![19] inb_S64_S1_19).view.writes (Elt F) Z [⟨Rect.whole S32x640, P 19⟩])
        ∗ own c (dwin c M3 f1 hr k0_off21 (fun _ => rfl) ![20] inb_S64_S1_20) ((dwin c M3 f1 hr k0_off21 (fun _ => rfl) ![20] inb_S64_S1_20).view.writes (Elt F) Z [⟨Rect.whole S32x640, P 20⟩])
        ∗ own c (dwin c M3 f1 hr k0_off22 (fun _ => rfl) ![21] inb_S64_S1_21) ((dwin c M3 f1 hr k0_off22 (fun _ => rfl) ![21] inb_S64_S1_21).view.writes (Elt F) Z [⟨Rect.whole S32x640, P 21⟩])
        ∗ own c (dwin c M3 f1 hr k0_off23 (fun _ => rfl) ![22] inb_S64_S1_22) ((dwin c M3 f1 hr k0_off23 (fun _ => rfl) ![22] inb_S64_S1_22).view.writes (Elt F) Z [⟨Rect.whole S32x640, P 22⟩])
        ∗ own c (dwin c M3 f1 hr k0_off24 (fun _ => rfl) ![23] inb_S64_S1_23) ((dwin c M3 f1 hr k0_off24 (fun _ => rfl) ![23] inb_S64_S1_23).view.writes (Elt F) Z [⟨Rect.whole S32x640, P 23⟩])
        ∗ own c (dwin c M3 f1 hr k0_off25 (fun _ => rfl) ![24] inb_S64_S1_24) ((dwin c M3 f1 hr k0_off25 (fun _ => rfl) ![24] inb_S64_S1_24).view.writes (Elt F) Z [⟨Rect.whole S32x640, P 24⟩])
        ∗ own c (dwin c M3 f1 hr k0_off26 (fun _ => rfl) ![25] inb_S64_S1_25) ((dwin c M3 f1 hr k0_off26 (fun _ => rfl) ![25] inb_S64_S1_25).view.writes (Elt F) Z [⟨Rect.whole S32x640, P 25⟩])
        ∗ own c (dwin c M3 f1 hr k0_off27 (fun _ => rfl) ![26] inb_S64_S1_26) ((dwin c M3 f1 hr k0_off27 (fun _ => rfl) ![26] inb_S64_S1_26).view.writes (Elt F) Z [⟨Rect.whole S32x640, P 26⟩])
        ∗ own c (dwin c M3 f1 hr k0_off28 (fun _ => rfl) ![27] inb_S64_S1_27) ((dwin c M3 f1 hr k0_off28 (fun _ => rfl) ![27] inb_S64_S1_27).view.writes (Elt F) Z [⟨Rect.whole S32x640, P 27⟩])
        ∗ own c (dwin c M3 f1 hr k0_off29 (fun _ => rfl) ![28] inb_S64_S1_28) ((dwin c M3 f1 hr k0_off29 (fun _ => rfl) ![28] inb_S64_S1_28).view.writes (Elt F) Z [⟨Rect.whole S32x640, P 28⟩])
        ∗ own c (dwin c M3 f1 hr k0_off30 (fun _ => rfl) ![29] inb_S64_S1_29) ((dwin c M3 f1 hr k0_off30 (fun _ => rfl) ![29] inb_S64_S1_29).view.writes (Elt F) Z [⟨Rect.whole S32x640, P 29⟩])
        ∗ own c (dwin c M3 f1 hr k0_off31 (fun _ => rfl) ![30] inb_S64_S1_30) ((dwin c M3 f1 hr k0_off31 (fun _ => rfl) ![30] inb_S64_S1_30).view.writes (Elt F) Z [⟨Rect.whole S32x640, P 30⟩])
        ∗ own c (dwin c M3 f1 hr k0_off32 (fun _ => rfl) ![31] inb_S64_S1_31) ((dwin c M3 f1 hr k0_off32 (fun _ => rfl) ![31] inb_S64_S1_31).view.writes (Elt F) Z [⟨Rect.whole S32x640, P 31⟩])
        ∗ own c (dwin c M3 f1 hr k0_off33 (fun _ => rfl) ![32] inb_S64_S1_32) ((dwin c M3 f1 hr k0_off33 (fun _ => rfl) ![32] inb_S64_S1_32).view.writes (Elt F) Z [⟨Rect.whole S32x640, P 32⟩])
        ∗ own c (dwin c M3 f1 hr k0_off34 (fun _ => rfl) ![33] inb_S64_S1_33) ((dwin c M3 f1 hr k0_off34 (fun _ => rfl) ![33] inb_S64_S1_33).view.writes (Elt F) Z [⟨Rect.whole S32x640, P 33⟩])
        ∗ own c (dwin c M3 f1 hr k0_off35 (fun _ => rfl) ![34] inb_S64_S1_34) ((dwin c M3 f1 hr k0_off35 (fun _ => rfl) ![34] inb_S64_S1_34).view.writes (Elt F) Z [⟨Rect.whole S32x640, P 34⟩])
        ∗ own c (dwin c M3 f1 hr k0_off36 (fun _ => rfl) ![35] inb_S64_S1_35) ((dwin c M3 f1 hr k0_off36 (fun _ => rfl) ![35] inb_S64_S1_35).view.writes (Elt F) Z [⟨Rect.whole S32x640, P 35⟩])
        ∗ own c (dwin c M3 f1 hr k0_off37 (fun _ => rfl) ![36] inb_S64_S1_36) ((dwin c M3 f1 hr k0_off37 (fun _ => rfl) ![36] inb_S64_S1_36).view.writes (Elt F) Z [⟨Rect.whole S32x640, P 36⟩])
        ∗ own c (dwin c M3 f1 hr k0_off38 (fun _ => rfl) ![37] inb_S64_S1_37) ((dwin c M3 f1 hr k0_off38 (fun _ => rfl) ![37] inb_S64_S1_37).view.writes (Elt F) Z [⟨Rect.whole S32x640, P 37⟩])
        ∗ own c (dwin c M3 f1 hr k0_off39 (fun _ => rfl) ![38] inb_S64_S1_38) ((dwin c M3 f1 hr k0_off39 (fun _ => rfl) ![38] inb_S64_S1_38).view.writes (Elt F) Z [⟨Rect.whole S32x640, P 38⟩])
        ∗ own c (dwin c M3 f1 hr k0_off40 (fun _ => rfl) ![39] inb_S64_S1_39) ((dwin c M3 f1 hr k0_off40 (fun _ => rfl) ![39] inb_S64_S1_39).view.writes (Elt F) Z [⟨Rect.whole S32x640, P 39⟩])
        ∗ own c (dwin c M3 f1 hr k0_off41 (fun _ => rfl) ![40] inb_S64_S1_40) ((dwin c M3 f1 hr k0_off41 (fun _ => rfl) ![40] inb_S64_S1_40).view.writes (Elt F) Z [⟨Rect.whole S32x640, P 40⟩])
        ∗ own c (dwin c M3 f1 hr k0_off42 (fun _ => rfl) ![41] inb_S64_S1_41) ((dwin c M3 f1 hr k0_off42 (fun _ => rfl) ![41] inb_S64_S1_41).view.writes (Elt F) Z [⟨Rect.whole S32x640, P 41⟩])
        ∗ own c (dwin c M3 f1 hr k0_off43 (fun _ => rfl) ![42] inb_S64_S1_42) ((dwin c M3 f1 hr k0_off43 (fun _ => rfl) ![42] inb_S64_S1_42).view.writes (Elt F) Z [⟨Rect.whole S32x640, P 42⟩])
        ∗ own c (dwin c M3 f1 hr k0_off44 (fun _ => rfl) ![43] inb_S64_S1_43) ((dwin c M3 f1 hr k0_off44 (fun _ => rfl) ![43] inb_S64_S1_43).view.writes (Elt F) Z [⟨Rect.whole S32x640, P 43⟩])
        ∗ own c (dwin c M3 f1 hr k0_off45 (fun _ => rfl) ![44] inb_S64_S1_44) ((dwin c M3 f1 hr k0_off45 (fun _ => rfl) ![44] inb_S64_S1_44).view.writes (Elt F) Z [⟨Rect.whole S32x640, P 44⟩])
        ∗ own c (dwin c M3 f1 hr k0_off46 (fun _ => rfl) ![45] inb_S64_S1_45) ((dwin c M3 f1 hr k0_off46 (fun _ => rfl) ![45] inb_S64_S1_45).view.writes (Elt F) Z [⟨Rect.whole S32x640, P 45⟩])
        ∗ own c (dwin c M3 f1 hr k0_off47 (fun _ => rfl) ![46] inb_S64_S1_46) ((dwin c M3 f1 hr k0_off47 (fun _ => rfl) ![46] inb_S64_S1_46).view.writes (Elt F) Z [⟨Rect.whole S32x640, P 46⟩])
        ∗ own c (dwin c M3 f1 hr k0_off48 (fun _ => rfl) ![47] inb_S64_S1_47) ((dwin c M3 f1 hr k0_off48 (fun _ => rfl) ![47] inb_S64_S1_47).view.writes (Elt F) Z [⟨Rect.whole S32x640, P 47⟩])
        ∗ own c (dwin c M3 f1 hr k0_off49 (fun _ => rfl) ![48] inb_S64_S1_48) ((dwin c M3 f1 hr k0_off49 (fun _ => rfl) ![48] inb_S64_S1_48).view.writes (Elt F) Z [⟨Rect.whole S32x640, P 48⟩])
        ∗ own c (dwin c M3 f1 hr k0_off50 (fun _ => rfl) ![49] inb_S64_S1_49) ((dwin c M3 f1 hr k0_off50 (fun _ => rfl) ![49] inb_S64_S1_49).view.writes (Elt F) Z [⟨Rect.whole S32x640, P 49⟩])
        ∗ own c (dwin c M3 f1 hr k0_off51 (fun _ => rfl) ![50] inb_S64_S1_50) ((dwin c M3 f1 hr k0_off51 (fun _ => rfl) ![50] inb_S64_S1_50).view.writes (Elt F) Z [⟨Rect.whole S32x640, P 50⟩])
        ∗ own c (dwin c M3 f1 hr k0_off52 (fun _ => rfl) ![51] inb_S64_S1_51) ((dwin c M3 f1 hr k0_off52 (fun _ => rfl) ![51] inb_S64_S1_51).view.writes (Elt F) Z [⟨Rect.whole S32x640, P 51⟩])
        ∗ own c (dwin c M3 f1 hr k0_off53 (fun _ => rfl) ![52] inb_S64_S1_52) ((dwin c M3 f1 hr k0_off53 (fun _ => rfl) ![52] inb_S64_S1_52).view.writes (Elt F) Z [⟨Rect.whole S32x640, P 52⟩])
        ∗ own c (dwin c M3 f1 hr k0_off54 (fun _ => rfl) ![53] inb_S64_S1_53) ((dwin c M3 f1 hr k0_off54 (fun _ => rfl) ![53] inb_S64_S1_53).view.writes (Elt F) Z [⟨Rect.whole S32x640, P 53⟩])
        ∗ own c (dwin c M3 f1 hr k0_off55 (fun _ => rfl) ![54] inb_S64_S1_54) ((dwin c M3 f1 hr k0_off55 (fun _ => rfl) ![54] inb_S64_S1_54).view.writes (Elt F) Z [⟨Rect.whole S32x640, P 54⟩])
        ∗ own c (dwin c M3 f1 hr k0_off56 (fun _ => rfl) ![55] inb_S64_S1_55) ((dwin c M3 f1 hr k0_off56 (fun _ => rfl) ![55] inb_S64_S1_55).view.writes (Elt F) Z [⟨Rect.whole S32x640, P 55⟩])
        ∗ own c (dwin c M3 f1 hr k0_off57 (fun _ => rfl) ![56] inb_S64_S1_56) ((dwin c M3 f1 hr k0_off57 (fun _ => rfl) ![56] inb_S64_S1_56).view.writes (Elt F) Z [⟨Rect.whole S32x640, P 56⟩])
        ∗ own c (dwin c M3 f1 hr k0_off58 (fun _ => rfl) ![57] inb_S64_S1_57) ((dwin c M3 f1 hr k0_off58 (fun _ => rfl) ![57] inb_S64_S1_57).view.writes (Elt F) Z [⟨Rect.whole S32x640, P 57⟩])
        ∗ own c (dwin c M3 f1 hr k0_off59 (fun _ => rfl) ![58] inb_S64_S1_58) ((dwin c M3 f1 hr k0_off59 (fun _ => rfl) ![58] inb_S64_S1_58).view.writes (Elt F) Z [⟨Rect.whole S32x640, P 58⟩])
        ∗ own c (dwin c M3 f1 hr k0_off60 (fun _ => rfl) ![59] inb_S64_S1_59) ((dwin c M3 f1 hr k0_off60 (fun _ => rfl) ![59] inb_S64_S1_59).view.writes (Elt F) Z [⟨Rect.whole S32x640, P 59⟩])
        ∗ own c (dwin c M3 f1 hr k0_off61 (fun _ => rfl) ![60] inb_S64_S1_60) ((dwin c M3 f1 hr k0_off61 (fun _ => rfl) ![60] inb_S64_S1_60).view.writes (Elt F) Z [⟨Rect.whole S32x640, P 60⟩])
        ∗ own c (dwin c M3 f1 hr k0_off62 (fun _ => rfl) ![61] inb_S64_S1_61) ((dwin c M3 f1 hr k0_off62 (fun _ => rfl) ![61] inb_S64_S1_61).view.writes (Elt F) Z [⟨Rect.whole S32x640, P 61⟩])
        ∗ own c (dwin c M3 f1 hr k0_off63 (fun _ => rfl) ![62] inb_S64_S1_62) ((dwin c M3 f1 hr k0_off63 (fun _ => rfl) ![62] inb_S64_S1_62).view.writes (Elt F) Z [⟨Rect.whole S32x640, P 62⟩])
        ∗ own c (dwin c M3 f1 hr k0_off64 (fun _ => rfl) ![63] inb_S64_S1_63) ((dwin c M3 f1 hr k0_off64 (fun _ => rfl) ![63] inb_S64_S1_63).view.writes (Elt F) Z [⟨Rect.whole S32x640, P 63⟩]))
        ∗ stash (F := F) (M3.view.loc (c : Thread nD τ) ↦[Finset.univ \ hitSet c M3 f1 hr]{fullShare} Z)) : sProp 𝕄)
    ⊢ iprop((bigSep Finset.univ fun k : Fin 64 =>
          own c (win c M3 f1 hr k) ((win c M3 f1 hr k).view.writes (Elt F) Z [⟨Rect.whole S32x640, P k⟩]))
        ∗ (M3.view.loc (c : Thread nD τ) ↦[Finset.univ \ hitSet c M3 f1 hr]{fullShare} Z)) :=
  BIClass.sep_mono (Entails.of_eq (bigSep_F64 (M := 𝕄) (fun k : Fin 64 =>
    own c (win c M3 f1 hr k) ((win c M3 f1 hr k).view.writes (Elt F) Z [⟨Rect.whole S32x640, P k⟩]))).symm) (stash_elim _)

set_option maxHeartbeats 8000000 in
theorem src_chain (c : Dev nD) (M2 : Memref sig .tc .vmem S32x64x640 .f32) (f2 : Bf (F := F) c M2) :
    (M2.view.loc (c : Thread nD τ) ↦{fullShare} f2 : sProp 𝕄) ⊣⊢
      iprop((own c (srow M2 ![0, 0, 0] inb_S32x64x640_S32x1x640_0_0_0) f2
        ∗ own c (srow M2 ![0, 1, 0] inb_S32x64x640_S32x1x640_0_1_0) f2
        ∗ own c (srow M2 ![0, 2, 0] inb_S32x64x640_S32x1x640_0_2_0) f2
        ∗ own c (srow M2 ![0, 3, 0] inb_S32x64x640_S32x1x640_0_3_0) f2
        ∗ own c (srow M2 ![0, 4, 0] inb_S32x64x640_S32x1x640_0_4_0) f2
        ∗ own c (srow M2 ![0, 5, 0] inb_S32x64x640_S32x1x640_0_5_0) f2
        ∗ own c (srow M2 ![0, 6, 0] inb_S32x64x640_S32x1x640_0_6_0) f2
        ∗ own c (srow M2 ![0, 7, 0] inb_S32x64x640_S32x1x640_0_7_0) f2
        ∗ own c (srow M2 ![0, 8, 0] inb_S32x64x640_S32x1x640_0_8_0) f2
        ∗ own c (srow M2 ![0, 9, 0] inb_S32x64x640_S32x1x640_0_9_0) f2
        ∗ own c (srow M2 ![0, 10, 0] inb_S32x64x640_S32x1x640_0_10_0) f2
        ∗ own c (srow M2 ![0, 11, 0] inb_S32x64x640_S32x1x640_0_11_0) f2
        ∗ own c (srow M2 ![0, 12, 0] inb_S32x64x640_S32x1x640_0_12_0) f2
        ∗ own c (srow M2 ![0, 13, 0] inb_S32x64x640_S32x1x640_0_13_0) f2
        ∗ own c (srow M2 ![0, 14, 0] inb_S32x64x640_S32x1x640_0_14_0) f2
        ∗ own c (srow M2 ![0, 15, 0] inb_S32x64x640_S32x1x640_0_15_0) f2
        ∗ own c (srow M2 ![0, 16, 0] inb_S32x64x640_S32x1x640_0_16_0) f2
        ∗ own c (srow M2 ![0, 17, 0] inb_S32x64x640_S32x1x640_0_17_0) f2
        ∗ own c (srow M2 ![0, 18, 0] inb_S32x64x640_S32x1x640_0_18_0) f2
        ∗ own c (srow M2 ![0, 19, 0] inb_S32x64x640_S32x1x640_0_19_0) f2
        ∗ own c (srow M2 ![0, 20, 0] inb_S32x64x640_S32x1x640_0_20_0) f2
        ∗ own c (srow M2 ![0, 21, 0] inb_S32x64x640_S32x1x640_0_21_0) f2
        ∗ own c (srow M2 ![0, 22, 0] inb_S32x64x640_S32x1x640_0_22_0) f2
        ∗ own c (srow M2 ![0, 23, 0] inb_S32x64x640_S32x1x640_0_23_0) f2
        ∗ own c (srow M2 ![0, 24, 0] inb_S32x64x640_S32x1x640_0_24_0) f2
        ∗ own c (srow M2 ![0, 25, 0] inb_S32x64x640_S32x1x640_0_25_0) f2
        ∗ own c (srow M2 ![0, 26, 0] inb_S32x64x640_S32x1x640_0_26_0) f2
        ∗ own c (srow M2 ![0, 27, 0] inb_S32x64x640_S32x1x640_0_27_0) f2
        ∗ own c (srow M2 ![0, 28, 0] inb_S32x64x640_S32x1x640_0_28_0) f2
        ∗ own c (srow M2 ![0, 29, 0] inb_S32x64x640_S32x1x640_0_29_0) f2
        ∗ own c (srow M2 ![0, 30, 0] inb_S32x64x640_S32x1x640_0_30_0) f2
        ∗ own c (srow M2 ![0, 31, 0] inb_S32x64x640_S32x1x640_0_31_0) f2
        ∗ own c (srow M2 ![0, 32, 0] inb_S32x64x640_S32x1x640_0_32_0) f2
        ∗ own c (srow M2 ![0, 33, 0] inb_S32x64x640_S32x1x640_0_33_0) f2
        ∗ own c (srow M2 ![0, 34, 0] inb_S32x64x640_S32x1x640_0_34_0) f2
        ∗ own c (srow M2 ![0, 35, 0] inb_S32x64x640_S32x1x640_0_35_0) f2
        ∗ own c (srow M2 ![0, 36, 0] inb_S32x64x640_S32x1x640_0_36_0) f2
        ∗ own c (srow M2 ![0, 37, 0] inb_S32x64x640_S32x1x640_0_37_0) f2
        ∗ own c (srow M2 ![0, 38, 0] inb_S32x64x640_S32x1x640_0_38_0) f2
        ∗ own c (srow M2 ![0, 39, 0] inb_S32x64x640_S32x1x640_0_39_0) f2
        ∗ own c (srow M2 ![0, 40, 0] inb_S32x64x640_S32x1x640_0_40_0) f2
        ∗ own c (srow M2 ![0, 41, 0] inb_S32x64x640_S32x1x640_0_41_0) f2
        ∗ own c (srow M2 ![0, 42, 0] inb_S32x64x640_S32x1x640_0_42_0) f2
        ∗ own c (srow M2 ![0, 43, 0] inb_S32x64x640_S32x1x640_0_43_0) f2
        ∗ own c (srow M2 ![0, 44, 0] inb_S32x64x640_S32x1x640_0_44_0) f2
        ∗ own c (srow M2 ![0, 45, 0] inb_S32x64x640_S32x1x640_0_45_0) f2
        ∗ own c (srow M2 ![0, 46, 0] inb_S32x64x640_S32x1x640_0_46_0) f2
        ∗ own c (srow M2 ![0, 47, 0] inb_S32x64x640_S32x1x640_0_47_0) f2
        ∗ own c (srow M2 ![0, 48, 0] inb_S32x64x640_S32x1x640_0_48_0) f2
        ∗ own c (srow M2 ![0, 49, 0] inb_S32x64x640_S32x1x640_0_49_0) f2
        ∗ own c (srow M2 ![0, 50, 0] inb_S32x64x640_S32x1x640_0_50_0) f2
        ∗ own c (srow M2 ![0, 51, 0] inb_S32x64x640_S32x1x640_0_51_0) f2
        ∗ own c (srow M2 ![0, 52, 0] inb_S32x64x640_S32x1x640_0_52_0) f2
        ∗ own c (srow M2 ![0, 53, 0] inb_S32x64x640_S32x1x640_0_53_0) f2
        ∗ own c (srow M2 ![0, 54, 0] inb_S32x64x640_S32x1x640_0_54_0) f2
        ∗ own c (srow M2 ![0, 55, 0] inb_S32x64x640_S32x1x640_0_55_0) f2
        ∗ own c (srow M2 ![0, 56, 0] inb_S32x64x640_S32x1x640_0_56_0) f2
        ∗ own c (srow M2 ![0, 57, 0] inb_S32x64x640_S32x1x640_0_57_0) f2
        ∗ own c (srow M2 ![0, 58, 0] inb_S32x64x640_S32x1x640_0_58_0) f2
        ∗ own c (srow M2 ![0, 59, 0] inb_S32x64x640_S32x1x640_0_59_0) f2
        ∗ own c (srow M2 ![0, 60, 0] inb_S32x64x640_S32x1x640_0_60_0) f2
        ∗ own c (srow M2 ![0, 61, 0] inb_S32x64x640_S32x1x640_0_61_0) f2
        ∗ own c (srow M2 ![0, 62, 0] inb_S32x64x640_S32x1x640_0_62_0) f2
        ∗ own c (srow M2 ![0, 63, 0] inb_S32x64x640_S32x1x640_0_63_0) f2)
        ∗ stash (F := F) (M2.view.loc (c : Thread nD τ) ↦[Finset.univ \ srcSet c M2]{fullShare} f2)) :=
  ⟨(split_src c M2 f2).1.trans (BIClass.sep_mono (Entails.of_eq (bigSep_F64 _)) (stash_intro _)),
   (BIClass.sep_mono (Entails.of_eq (bigSep_F64 (M := 𝕄) (fun k : Fin 64 => own c (swin M2 k) f2)).symm) (stash_elim _)).trans
     (split_src c M2 f2).2⟩

end Cert.Proof.KI

end
-- ==== Proof.KIJoin.lean ====
import proofs.«424837_j50560355008971_3_alg».proof.Proof.KIRows

noncomputable section

namespace Cert.Proof.KI

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Hand.LibRowWindow Cert.Proof.Spec

variable {F : FTy → Type} [FloatOps F] [Cert.KernelIdeal.Facts]

local notation "𝕄" => MT nD τ sig Unit (Elt F) ℕ (UU nD τ) ℕ

theorem emb_mem_hitSet (c : Dev nD) (M3 : Memref sig .tc .vmem S32x110x640 .f32) (f1 : Bf (F := F) c (Memref.whole main_arg1))
    (hr : InRange f1) (j : S32x110x640.Idx) :
    M3.view.emb j ∈ hitSet c M3 f1 hr ↔ ∃ k : Fin 64, (wd c f1 k).toNat = (j 1).val := by
  rw [Finset.mem_biUnion]
  constructor
  · rintro ⟨k, -, hk⟩
    exact ⟨k, ((mem_rowWin_set M3 (rowInb _ (wd_lt c f1 hr k)) squeezes_S32x1x640_S32x640 rfl j).mp hk).symm⟩
  · rintro ⟨k, hk⟩
    exact ⟨k, Finset.mem_univ _, (mem_rowWin_set M3 (rowInb _ (wd_lt c f1 hr k)) squeezes_S32x1x640_S32x640 rfl j).mpr hk.symm⟩

/-- Disjoint windows, each at its own contents, join into their union at contents agreeing with each on its window; with the untouched rest this is the block held whole. -/
theorem join_rows (c : Dev nD) (M3 : Memref sig .tc .vmem S32x110x640 .f32) (f1 : Bf (F := F) c (Memref.whole main_arg1))
    (hr : InRange f1) (hd : Distinct f1) (Z : Bf (F := F) c M3) (P : Fin 64 → S32x640.Idx → Elt F .f32) :
    (iprop((bigSep Finset.univ fun k : Fin 64 =>
          (win c M3 f1 hr k).view.loc (c : Thread nD τ) ↦[(win c M3 f1 hr k).view.set]{fullShare}
            ((win c M3 f1 hr k).view.writes (Elt F) Z [⟨Rect.whole S32x640, P k⟩]))
        ∗ (M3.view.loc (c : Thread nD τ) ↦[Finset.univ \ hitSet c M3 f1 hr]{fullShare} Z)) : sProp 𝕄)
    ⊢ iprop(∃ g : Bf (F := F) c M3,
        ⌜(∀ (k : Fin 64) (b : Fin 32) (t : Fin 640),
              M3.view.read (Elt F) g (ix3 b ⟨(wd c f1 k).toNat, wd_lt c f1 hr k⟩ t) = P k (ix2 b t))
          ∧ (∀ j : S32x110x640.Idx, (∀ k : Fin 64, (wd c f1 k).toNat ≠ (j 1).val) → M3.view.read (Elt F) g j = M3.view.read (Elt F) Z j)⌝
        ∗ (M3.view.loc (c : Thread nD τ) ↦{fullShare} g)) := by
  have hJ := pointsTo_biUnion_join (Ix := Unit) (Name := ℕ) (U := UU nD τ) (Lvl := ℕ) (Val := Elt F)
      (ℓ := M3.view.loc (c : Thread nD τ)) (q := fullShare)
      Finset.univ (fun k : Fin 64 => (win c M3 f1 hr k).view.set)
      (fun k : Fin 64 => ((win c M3 f1 hr k).view.writes (Elt F) Z [⟨Rect.whole S32x640, P k⟩] : Bf (F := F) c M3)) Z
      (fun k _ k' _ hne => win_disjoint c M3 f1 hr hd k k' hne)
  iintro ⟨Hw, Hrest⟩
  ihave H := hJ $$ Hw
  icases H with ⟨%g0, %hg0, Hhit⟩
  iexists ((hitSet c M3 f1 hr).piecewise g0 Z : Bf (F := F) c M3)
  isplitr
  · ipureintro
    refine ⟨fun k b t => ?_, fun j hj => ?_⟩
    · have hmem : M3.view.emb (ix3 b ⟨(wd c f1 k).toNat, wd_lt c f1 hr k⟩ t) ∈ (win c M3 f1 hr k).view.set :=
        (mem_rowWin_set M3 (rowInb _ (wd_lt c f1 hr k)) squeezes_S32x1x640_S32x640 rfl _).mpr rfl
      have hin : M3.view.emb (ix3 b ⟨(wd c f1 k).toNat, wd_lt c f1 hr k⟩ t) ∈ hitSet c M3 f1 hr :=
        Finset.mem_biUnion.mpr ⟨k, Finset.mem_univ _, hmem⟩
      rw [View.read_congr_at (ix3 b ⟨(wd c f1 k).toNat, wd_lt c f1 hr k⟩ t)
        ((Finset.piecewise_eq_of_mem _ _ _ hin).trans (hg0 k (Finset.mem_univ _) _ hmem))]
      exact read_rowWin_writes_hit (Elt F) M3 (rowInb _ (wd_lt c f1 hr k)) squeezes_S32x1x640_S32x640 (wd_lt c f1 hr k) rfl Z (P k) b t
    · have hnot : M3.view.emb j ∉ hitSet c M3 f1 hr := fun hin => by
        obtain ⟨k, hk⟩ := (emb_mem_hitSet c M3 f1 hr j).mp hin
        exact hj k hk
      exact View.read_congr_at j (Finset.piecewise_eq_of_notMem _ _ _ hnot)
  · iapply (pointsTo_join_subset (Ix := Unit) (Name := ℕ) (U := UU nD τ) (Lvl := ℕ) (Val := Elt F)
      (ℓ := M3.view.loc (c : Thread nD τ)) (q := fullShare) (Finset.subset_univ (hitSet c M3 f1 hr)))
    isplitl [Hhit]
    · iexact Hhit
    · iexact Hrest

/-- Contents that read channel `k`'s row where `k` is sent, and the fill value on rows no channel is sent to, are the row scatter. -/
theorem read_eq_scat (c : Dev nD) (M3 : Memref sig .tc .vmem S32x110x640 .f32) (f1 : Bf (F := F) c (Memref.whole main_arg1))
    (hr : InRange f1) (hd : Distinct f1) (g : Bf (F := F) c M3) (x : (⟨3, ![32, 64, 640]⟩ : Shape).Idx → Elt F .f32) (z : Elt F .f32)
    (hhit : ∀ (k : Fin 64) (b : Fin 32) (t : Fin 640), M3.view.read (Elt F) g (ix3 b ⟨(wd c f1 k).toNat, wd_lt c f1 hr k⟩ t) = x (ix3 b k t))
    (hmiss : ∀ j : S32x110x640.Idx, (∀ k : Fin 64, (wd c f1 k).toNat ≠ (j 1).val) → M3.view.read (Elt F) g j = z) :
    M3.view.read (Elt F) g = Cert.Proof.Spec.scat 32 z x f1 := by
  funext j
  obtain ⟨b, r, t, rfl⟩ : ∃ (b : Fin 32) (r : Fin 110) (t : Fin 640), j = ix3 b r t := ⟨j 0, j 1, j 2, eq_ix3 j⟩
  by_cases h : ∃ k : Fin 64, rowOf f1 k = r.val
  · obtain ⟨k, hk⟩ := h
    have hw : (wd c f1 k).toNat = r.val := by rw [wd_eq]; exact hk
    have hrow : (⟨(wd c f1 k).toNat, wd_lt c f1 hr k⟩ : Fin 110) = r := Fin.ext hw
    rw [Cert.Proof.Spec.scat_hit 32 z x f1 hd b r t k hk, ← hhit k b t, hrow]
  · rw [Cert.Proof.Spec.scat_miss 32 z x f1 b r t (fun k hk => h ⟨k, hk⟩)]
    refine hmiss _ (fun k hk => h ⟨k, ?_⟩)
    have : (wd c f1 k).toNat = r.val := hk
    rw [wd_eq] at this
    exact this

end Cert.Proof.KI

end
-- ==== Proof.KIZero.lean ====
import proofs.«424837_j50560355008971_3_alg».proof.Proof.KIBase
import Idealize.ShloMosaic.Lib.Writes
import Idealize.ShloMosaic.Lib.ValueIdx

noncomputable section

namespace Cert.Proof.KI

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Cert.KernelIdeal.Facts]

local notation "𝕄" => MT nD τ sig Unit (Elt F) ℕ (UU nD τ) ℕ

theorem mem_zero_rect (j : S32x110x640.Idx) :
    j ∈ (Rect.unit (s := S32x110x640) ![0, 0, 0] S32x110x640.size inb_S32x110x640_S32x110x640_0_0_0).set := by
  rw [Rect.mem_set_unit]
  intro a
  match a with
  | ⟨0, _⟩ => have h0 : (j 0).val < 32 := (j 0).isLt; show 0 ≤ (j 0).val ∧ (j 0).val < 0 + 32; omega
  | ⟨1, _⟩ => have h1 : (j 1).val < 110 := (j 1).isLt; show 0 ≤ (j 1).val ∧ (j 1).val < 0 + 110; omega
  | ⟨2, _⟩ => have h2 : (j 2).val < 640 := (j 2).isLt; show 0 ≤ (j 2).val ∧ (j 2).val < 0 + 640; omega

/-- The first store's rectangle is the whole block, so afterwards every index reads the fill value. -/
theorem read_zeroed (c : Dev nD) (M3 : Memref sig .tc .vmem S32x110x640 .f32) (f3 : Bf (F := F) c M3) (j : S32x110x640.Idx) :
    M3.view.read (Elt F)
        (M3.view.writes (Elt F) f3 [⟨Rect.unit (s := S32x110x640) ![0, 0, 0] S32x110x640.size inb_S32x110x640_S32x110x640_0_0_0, k0_pay1⟩]) j
      = zeroF := by
  obtain ⟨x, rfl⟩ : ∃ x, (Rect.unit (s := S32x110x640) ![0, 0, 0] S32x110x640.size inb_S32x110x640_S32x110x640_0_0_0).emb x = j :=
    (Rect.unit (s := S32x110x640) ![0, 0, 0] S32x110x640.size inb_S32x110x640_S32x110x640_0_0_0).exists_idx_of_mem (mem_zero_rect j)
  rw [View.read_writes_cons_emb]
  rfl

end Cert.Proof.KI

end
-- ==== Proof.KIRun.lean ====
import proofs.«424837_j50560355008971_3_alg».proof.Proof.KIChains
import proofs.«424837_j50560355008971_3_alg».proof.Proof.KIJoin
import proofs.«424837_j50560355008971_3_alg».proof.Proof.KIZero

noncomputable section

namespace Cert.Proof.KI

open Cert.KernelIdeal Cert.KernelIdeal.Gen
open Idealize.ShloMosaic
open Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Hand.LibRowWindow Cert.Proof.Spec

variable {F : FTy → Type} [FloatOps F] [Cert.KernelIdeal.Facts]

local notation "𝕄" => MT nD τ sig Unit (Elt F) ℕ (UU nD τ) ℕ

set_option maxHeartbeats 32000000 in
/-- One grid point's body: with the table in range and injective the sixty-four copies land in disjoint rows, so the block ends at
    the row scatter of the input block. -/
theorem kernelRun [∀ e, Nonempty (Elt F e)] (c : Dev nD) (i : grid0.Coords)
    (M2 : Memref sig .tc .vmem S32x64x640 .f32) (h2 : M2.IsWhole) (M3 : Memref sig .tc .vmem S32x110x640 .f32) (h3 : M3.IsWhole)
    (f1 : Bf (F := F) c (Memref.whole main_arg1)) (hr : Cert.Proof.Spec.InRange f1) (hd : Cert.Proof.Spec.Distinct f1)
    (f2 : Bf (F := F) c M2) (f3 : Bf (F := F) c M3) (W : Waits sig Unit) (Q : PUnit → sProp 𝕄) :
    iprop(pt c (Memref.whole main_arg1) f1 ∗ pt c M2 f2 ∗ pt c M3 f3 ∗ sems0 c ∗ owes (c : Thread nD τ) 0 W
      ∗ (iprop(pt c (Memref.whole main_arg1) f1 ∗ pt c M2 f2
            ∗ (∃ g3 : Bf (F := F) c M3, ⌜M3.view.read (Elt F) g3 = Cert.Proof.Spec.scat 32 zeroF (M2.view.read (Elt F) f2) f1⌝ ∗ pt c M3 g3)
            ∗ sems0 c ∗ ∃ W', owes (c : Thread nD τ) 0 W') -∗ Q ⟨⟩))
    ⊢ wp frame (wpE (defs₀ (F := F)) Variants.none c none) Set.univ
        (cc0__scatter_kernel i (Memref.whole main_arg1) (Memref.isWhole_whole _) M2 h2 M3 h3 cc0_scratch0) Q := by
  rw [sems0_chain]
  iintro ⟨H1, H2, H3, ⟨Hd4, Hd5, Hd6, Hd7, Hd8, Hd9, Hd10, Hd11, Hd12, Hd13, Hd14, Hd15, Hd16, Hd17, Hd18, Hd19, Hd20, Hd21, Hd22, Hd23, Hd24, Hd25, Hd26, Hd27, Hd28, Hd29, Hd30, Hd31, Hd32, Hd33, Hd34, Hd35, Hd36, Hd37, Hd38, Hd39, Hd40, Hd41, Hd42, Hd43, Hd44, Hd45, Hd46, Hd47, Hd48, Hd49, Hd50, Hd51, Hd52, Hd53, Hd54, Hd55, Hd56, Hd57, Hd58, Hd59, Hd60, Hd61, Hd62, Hd63, Hd64, Hd65, Hd66, Hd67⟩, HO, Hk⟩
  sl_exec
  have hck : k0_chk1 (ldw c f1 ![0] inb_S64_S1_0) := rowInb2 _ (ldw_lt c f1 hr _ _)
  iapply (wp_assume _ _ _ _ hck)
  generalize hZ : M3.view.writes (Elt F) f3 _ = Z
  ihave H := (split_dst_chain c M3 f1 hr hd Z) $$ H3
  icases H with ⟨⟨Hr0, Hr1, Hr2, Hr3, Hr4, Hr5, Hr6, Hr7, Hr8, Hr9, Hr10, Hr11, Hr12, Hr13, Hr14, Hr15, Hr16, Hr17, Hr18, Hr19, Hr20, Hr21, Hr22, Hr23, Hr24, Hr25, Hr26, Hr27, Hr28, Hr29, Hr30, Hr31, Hr32, Hr33, Hr34, Hr35, Hr36, Hr37, Hr38, Hr39, Hr40, Hr41, Hr42, Hr43, Hr44, Hr45, Hr46, Hr47, Hr48, Hr49, Hr50, Hr51, Hr52, Hr53, Hr54, Hr55, Hr56, Hr57, Hr58, Hr59, Hr60, Hr61, Hr62, Hr63⟩, Hrest⟩
  ihave H := (src_chain c M2 f2).1 $$ H2
  icases H with ⟨⟨Hs0, Hs1, Hs2, Hs3, Hs4, Hs5, Hs6, Hs7, Hs8, Hs9, Hs10, Hs11, Hs12, Hs13, Hs14, Hs15, Hs16, Hs17, Hs18, Hs19, Hs20, Hs21, Hs22, Hs23, Hs24, Hs25, Hs26, Hs27, Hs28, Hs29, Hs30, Hs31, Hs32, Hs33, Hs34, Hs35, Hs36, Hs37, Hs38, Hs39, Hs40, Hs41, Hs42, Hs43, Hs44, Hs45, Hs46, Hs47, Hs48, Hs49, Hs50, Hs51, Hs52, Hs53, Hs54, Hs55, Hs56, Hs57, Hs58, Hs59, Hs60, Hs61, Hs62, Hs63⟩, Hsrest⟩
  sl_exec (disch := first | exact rowInb2 _ (ldw_lt c f1 hr _ _) | exact rowInb _ (ldw_lt c f1 hr _ _))
  sl_step
  iapply Hk
  isplitl [H1]; · iexact H1
  isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hs25 Hs26 Hs27 Hs28 Hs29 Hs30 Hs31 Hs32 Hs33 Hs34 Hs35 Hs36 Hs37 Hs38 Hs39 Hs40 Hs41 Hs42 Hs43 Hs44 Hs45 Hs46 Hs47 Hs48 Hs49 Hs50 Hs51 Hs52 Hs53 Hs54 Hs55 Hs56 Hs57 Hs58 Hs59 Hs60 Hs61 Hs62 Hs63 Hsrest]
  · iapply (src_chain c M2 f2).2
    iframe
  isplitl [Hr0 Hr1 Hr2 Hr3 Hr4 Hr5 Hr6 Hr7 Hr8 Hr9 Hr10 Hr11 Hr12 Hr13 Hr14 Hr15 Hr16 Hr17 Hr18 Hr19 Hr20 Hr21 Hr22 Hr23 Hr24 Hr25 Hr26 Hr27 Hr28 Hr29 Hr30 Hr31 Hr32 Hr33 Hr34 Hr35 Hr36 Hr37 Hr38 Hr39 Hr40 Hr41 Hr42 Hr43 Hr44 Hr45 Hr46 Hr47 Hr48 Hr49 Hr50 Hr51 Hr52 Hr53 Hr54 Hr55 Hr56 Hr57 Hr58 Hr59 Hr60 Hr61 Hr62 Hr63 Hrest]
  · ihave HJ := (join_dst_chain c M3 f1 hr Z (fun k : Fin 64 => (swin M2 k).view.read (Elt F) f2)) $$ [Hr0 Hr1 Hr2 Hr3 Hr4 Hr5 Hr6 Hr7 Hr8 Hr9 Hr10 Hr11 Hr12 Hr13 Hr14 Hr15 Hr16 Hr17 Hr18 Hr19 Hr20 Hr21 Hr22 Hr23 Hr24 Hr25 Hr26 Hr27 Hr28 Hr29 Hr30 Hr31 Hr32 Hr33 Hr34 Hr35 Hr36 Hr37 Hr38 Hr39 Hr40 Hr41 Hr42 Hr43 Hr44 Hr45 Hr46 Hr47 Hr48 Hr49 Hr50 Hr51 Hr52 Hr53 Hr54 Hr55 Hr56 Hr57 Hr58 Hr59 Hr60 Hr61 Hr62 Hr63 Hrest]
    · isplitr [Hrest]; swap; (· iexact Hrest)
      isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6]; · iexact Hr6
      isplitl [Hr7]; · iexact Hr7
      isplitl [Hr8]; · iexact Hr8
      isplitl [Hr9]; · iexact Hr9
      isplitl [Hr10]; · iexact Hr10
      isplitl [Hr11]; · iexact Hr11
      isplitl [Hr12]; · iexact Hr12
      isplitl [Hr13]; · iexact Hr13
      isplitl [Hr14]; · iexact Hr14
      isplitl [Hr15]; · iexact Hr15
      isplitl [Hr16]; · iexact Hr16
      isplitl [Hr17]; · iexact Hr17
      isplitl [Hr18]; · iexact Hr18
      isplitl [Hr19]; · iexact Hr19
      isplitl [Hr20]; · iexact Hr20
      isplitl [Hr21]; · iexact Hr21
      isplitl [Hr22]; · iexact Hr22
      isplitl [Hr23]; · iexact Hr23
      isplitl [Hr24]; · iexact Hr24
      isplitl [Hr25]; · iexact Hr25
      isplitl [Hr26]; · iexact Hr26
      isplitl [Hr27]; · iexact Hr27
      isplitl [Hr28]; · iexact Hr28
      isplitl [Hr29]; · iexact Hr29
      isplitl [Hr30]; · iexact Hr30
      isplitl [Hr31]; · iexact Hr31
      isplitl [Hr32]; · iexact Hr32
      isplitl [Hr33]; · iexact Hr33
      isplitl [Hr34]; · iexact Hr34
      isplitl [Hr35]; · iexact Hr35
      isplitl [Hr36]; · iexact Hr36
      isplitl [Hr37]; · iexact Hr37
      isplitl [Hr38]; · iexact Hr38
      isplitl [Hr39]; · iexact Hr39
      isplitl [Hr40]; · iexact Hr40
      isplitl [Hr41]; · iexact Hr41
      isplitl [Hr42]; · iexact Hr42
      isplitl [Hr43]; · iexact Hr43
      isplitl [Hr44]; · iexact Hr44
      isplitl [Hr45]; · iexact Hr45
      isplitl [Hr46]; · iexact Hr46
      isplitl [Hr47]; · iexact Hr47
      isplitl [Hr48]; · iexact Hr48
      isplitl [Hr49]; · iexact Hr49
      isplitl [Hr50]; · iexact Hr50
      isplitl [Hr51]; · iexact Hr51
      isplitl [Hr52]; · iexact Hr52
      isplitl [Hr53]; · iexact Hr53
      isplitl [Hr54]; · iexact Hr54
      isplitl [Hr55]; · iexact Hr55
      isplitl [Hr56]; · iexact Hr56
      isplitl [Hr57]; · iexact Hr57
      isplitl [Hr58]; · iexact Hr58
      isplitl [Hr59]; · iexact Hr59
      isplitl [Hr60]; · iexact Hr60
      isplitl [Hr61]; · iexact Hr61
      isplitl [Hr62]; · iexact Hr62
      iexact Hr63
    ihave HJ2 := (join_rows c M3 f1 hr hd Z (fun k : Fin 64 => (swin M2 k).view.read (Elt F) f2)) $$ HJ
    icases HJ2 with ⟨%g, %hg, Hg⟩
    iexists g
    isplitr [Hg]; swap; (· iexact Hg)
    ipureintro
    refine read_eq_scat c M3 f1 hr hd g (M2.view.read (Elt F) f2) zeroF
      (fun k b t => (hg.1 k b t).trans (rowWin_read_ix (Elt F) M2 (srcInb k) squeezes_S32x1x640_S32x640 k.isLt rfl f2 b t))
      (fun j hj => (hg.2 j hj).trans ?_)
    rw [← hZ]
    exact read_zeroed c M3 f3 j
  isplitl [Hd4 Hd5 Hd6 Hd7 Hd8 Hd9 Hd10 Hd11 Hd12 Hd13 Hd14 Hd15 Hd16 Hd17 Hd18 Hd19 Hd20 Hd21 Hd22 Hd23 Hd24 Hd25 Hd26 Hd27 Hd28 Hd29 Hd30 Hd31 Hd32 Hd33 Hd34 Hd35 Hd36 Hd37 Hd38 Hd39 Hd40 Hd41 Hd42 Hd43 Hd44 Hd45 Hd46 Hd47 Hd48 Hd49 Hd50 Hd51 Hd52 Hd53 Hd54 Hd55 Hd56 Hd57 Hd58 Hd59 Hd60 Hd61 Hd62 Hd63 Hd64 Hd65 Hd66 Hd67]
  · isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    isplitl [Hd14]; · iexact Hd14
    isplitl [Hd15]; · iexact Hd15
    isplitl [Hd16]; · iexact Hd16
    isplitl [Hd17]; · iexact Hd17
    isplitl [Hd18]; · iexact Hd18
    isplitl [Hd19]; · iexact Hd19
    isplitl [Hd20]; · iexact Hd20
    isplitl [Hd21]; · iexact Hd21
    isplitl [Hd22]; · iexact Hd22
    isplitl [Hd23]; · iexact Hd23
    isplitl [Hd24]; · iexact Hd24
    isplitl [Hd25]; · iexact Hd25
    isplitl [Hd26]; · iexact Hd26
    isplitl [Hd27]; · iexact Hd27
    isplitl [Hd28]; · iexact Hd28
    isplitl [Hd29]; · iexact Hd29
    isplitl [Hd30]; · iexact Hd30
    isplitl [Hd31]; · iexact Hd31
    isplitl [Hd32]; · iexact Hd32
    isplitl [Hd33]; · iexact Hd33
    isplitl [Hd34]; · iexact Hd34
    isplitl [Hd35]; · iexact Hd35
    isplitl [Hd36]; · iexact Hd36
    isplitl [Hd37]; · iexact Hd37
    isplitl [Hd38]; · iexact Hd38
    isplitl [Hd39]; · iexact Hd39
    isplitl [Hd40]; · iexact Hd40
    isplitl [Hd41]; · iexact Hd41
    isplitl [Hd42]; · iexact Hd42
    isplitl [Hd43]; · iexact Hd43
    isplitl [Hd44]; · iexact Hd44
    isplitl [Hd45]; · iexact Hd45
    isplitl [Hd46]; · iexact Hd46
    isplitl [Hd47]; · iexact Hd47
    isplitl [Hd48]; · iexact Hd48
    isplitl [Hd49]; · iexact Hd49
    isplitl [Hd50]; · iexact Hd50
    isplitl [Hd51]; · iexact Hd51
    isplitl [Hd52]; · iexact Hd52
    isplitl [Hd53]; · iexact Hd53
    isplitl [Hd54]; · iexact Hd54
    isplitl [Hd55]; · iexact Hd55
    isplitl [Hd56]; · iexact Hd56
    isplitl [Hd57]; · iexact Hd57
    isplitl [Hd58]; · iexact Hd58
    isplitl [Hd59]; · iexact Hd59
    isplitl [Hd60]; · iexact Hd60
    isplitl [Hd61]; · iexact Hd61
    isplitl [Hd62]; · iexact Hd62
    isplitl [Hd63]; · iexact Hd63
    isplitl [Hd64]; · iexact Hd64
    isplitl [Hd65]; · iexact Hd65
    isplitl [Hd66]; · iexact Hd66
    iexact Hd67
  iexists _; iexact HO

end Cert.Proof.KI

end
-- ==== Proof.KIDats.lean ====
import proofs.«424837_j50560355008971_3_alg».proof.Proof.KIRun

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [Cert.KernelIdeal.Facts]

local notation "𝕄" => MT nD τ sig Unit (Elt F) ℕ (UU nD τ) ℕ

variable (m : (ℓ : Loc nD τ sig) → Buf (Elt F) ℓ)

abbrev tbl (c : Dev nD) : Buf (Elt F) ((c : Thread nD τ).loc main_arg1) := m ((c : Thread nD τ).loc main_arg1)

def adm : (p : Fin 1) → (pcfgs (F := F) p).Adm :=
  fun _ => ⟨fun k => m (((0 : Dev nD) : Thread nD τ).loc (pre0.ref k)), trivial⟩

def Φc (c : Dev nD) : sProp 𝕄 :=
  iprop(pt c (Memref.whole main_arg1) (tbl m c) ∗ sems0 c
    ∗ Pipeline.scopedRest (Ix := Unit) (Name := ℕ) (U := UU nD τ) (Lvl := ℕ) (Val := Elt F) spec0 c)

abbrev inBlock (p : Fin 1) (c : Dev nD) (t : Fin (Pipeline.pin (pcfgs (F := F)) (adm m) p).N) :
    ((Pipeline.pin (pcfgs (F := F)) (adm m) p).win 0).block.Idx → Elt F ((Pipeline.pin (pcfgs (F := F)) (adm m) p).win 0).elt :=
  (((Pipeline.pin (pcfgs (F := F)) (adm m) p).win 0).blk t).view.read (Elt F)
    (m (((Pipeline.pin (pcfgs (F := F)) (adm m) p).win 0).arr.view.loc (c : Thread nD τ)))

def dats (_ρ : Dev nD → PrngReg) (p : Fin 1) (c : Dev nD) : Dat τ (Elt F) Unit ℕ (UU nD τ) ℕ (Pipeline.pin (pcfgs (F := F)) (adm m) p) c where
  A w := m (((Pipeline.pin (pcfgs (F := F)) (adm m) p).win w).arr.view.loc (c : Thread nD τ))
  after w t := match w with
    | ⟨0, _⟩ => inBlock m p c t
    | ⟨1, _⟩ => Cert.Proof.Spec.scat 32 zeroF (inBlock m p c t) (tbl m c)
  Φ _ := Φc m c
  q _ := fullShare
  owed _ := 0

def finalOut (ρ : Dev nD → PrngReg) (c : Dev nD) := (dats m ρ 0 c).arrAt 1 (Pipeline.pin (pcfgs (F := F)) (adm m) 0).N

end Cert.Proof.KI

end
-- ==== Proof.KIValue.lean ====
import proofs.«424837_j50560355008971_3_alg».proof.Proof.KIDats
import Idealize.ShloMosaic.Lib.Pipeline.Value

noncomputable section

namespace Cert.Proof.KI

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F] [Cert.KernelIdeal.Facts]

def blockOf {α : Type} (x : (⟨3, ![512, 64, 640]⟩ : Shape).Idx → α) (t : Fin 16) : (⟨3, ![32, 64, 640]⟩ : Shape).Idx → α :=
  fun j => x (ix3 ⟨t.val * 32 + (j 0).val, by have h0 : (j 0).val < 32 := (j 0).isLt; have := t.isLt; omega⟩ (j 1) (j 2))

/-- The scatter does not look at the leading coordinate, so the scatter of the whole array read inside block `t` is the scatter of block `t`. -/
theorem scat_block {α : Type} (z : α) (x : (⟨3, ![512, 64, 640]⟩ : Shape).Idx → α) (idx : (⟨1, ![64]⟩ : Shape).Idx → BitVec 32)
    (t : Fin 16) (b : Fin 32) (r : Fin 110) (s : Fin 640) :
    Cert.Proof.Spec.scat 512 z x idx (ix3 ⟨t.val * 32 + b.val, by have := b.isLt; have := t.isLt; omega⟩ r s)
      = Cert.Proof.Spec.scat 32 z (blockOf x t) idx (ix3 b r s) := by
  unfold Cert.Proof.Spec.scat
  by_cases h : ∃ c : Fin 64, Cert.Proof.Spec.rowOf idx c = r.val
  · rw [dif_pos (show ∃ c : Fin 64, Cert.Proof.Spec.rowOf idx c = ((ix3 (⟨t.val * 32 + b.val, by have := b.isLt; have := t.isLt; omega⟩ : Fin 512) r s : (⟨3, ![512, 110, 640]⟩ : Shape).Idx) 1).val from h),
      dif_pos (show ∃ c : Fin 64, Cert.Proof.Spec.rowOf idx c = ((ix3 b r s : (⟨3, ![32, 110, 640]⟩ : Shape).Idx) 1).val from h)]
    rfl
  · rw [dif_neg (show ¬ ∃ c : Fin 64, Cert.Proof.Spec.rowOf idx c = ((ix3 (⟨t.val * 32 + b.val, by have := b.isLt; have := t.isLt; omega⟩ : Fin 512) r s : (⟨3, ![512, 110, 640]⟩ : Shape).Idx) 1).val from h),
      dif_neg (show ¬ ∃ c : Fin 64, Cert.Proof.Spec.rowOf idx c = ((ix3 b r s : (⟨3, ![32, 110, 640]⟩ : Shape).Idx) 1).val from h)]

theorem idx_facts (a : (pcfg0 (F := F)).Adm) : ∀ t : Fin (cfg0 a).N,
    (win0 a 0).index t (0 : Fin 3) = t.val ∧ (win0 a 0).index t (1 : Fin 3) = 0 ∧ (win0 a 0).index t (2 : Fin 3) = 0
    ∧ (win0 a 1).index t (0 : Fin 3) = t.val ∧ (win0 a 1).index t (1 : Fin 3) = 0 ∧ (win0 a 1).index t (2 : Fin 3) = 0 :=
  (by decide +kernel : ∀ t : Fin grid0.N,
    cc0_transform_0 (grid0.coords t) (0 : Fin 3) = t.val ∧ cc0_transform_0 (grid0.coords t) (1 : Fin 3) = 0 ∧ cc0_transform_0 (grid0.coords t) (2 : Fin 3) = 0
    ∧ cc0_transform_1 (grid0.coords t) (0 : Fin 3) = t.val ∧ cc0_transform_1 (grid0.coords t) (1 : Fin 3) = 0 ∧ cc0_transform_1 (grid0.coords t) (2 : Fin 3) = 0)

theorem flush_out (a : (pcfg0 (F := F)).Adm) (t : Fin (cfg0 a).N) : ((cfg0 a).win 1).flush t = true := by
  unfold Pipeline.Window.flush
  have hout : ((cfg0 a).win 1).isOut = true := rfl
  rw [hout, Bool.true_and, Bool.or_eq_true, decide_eq_true_eq, decide_eq_true_eq]
  by_cases h : t.val + 1 = grid0.N
  · exact Or.inl h
  · have hN : grid0.N = 16 := N_0
    have ht : t.val < 16 := hN ▸ t.isLt
    refine Or.inr ⟨by show t.val + 1 < grid0.N; omega, fun e => ?_⟩
    have e0 := congrFun e (0 : Fin 3)
    have h1 := (idx_facts a ⟨t.val + 1, by show t.val + 1 < grid0.N; omega⟩).2.2.2.1
    have h2 := (idx_facts a t).2.2.2.1
    change (win0 a 1).index ⟨t.val + 1, _⟩ (0 : Fin 3) = (win0 a 1).index t (0 : Fin 3) at e0
    rw [h1, h2] at e0
    simp at e0

theorem mem_blk_out (a : (pcfg0 (F := F)).Adm) (t : Fin (cfg0 a).N) (i : S512x110x640.Idx) :
    i ∈ (((cfg0 a).win 1).blk t).view.set ↔ ∀ k : Fin 3, (win0 a 1).index t k * S32x110x640.size k ≤ (i k).val ∧ (i k).val < (win0 a 1).index t k * S32x110x640.size k + S32x110x640.size k := by
  show i ∈ ((View.whole main_v0).slice ((win0 a 1).rect t)).set ↔ _
  rw [View.set_slice_whole, Rect.mem_set_unit]
  exact Iff.rfl

theorem cover_out (a : (pcfg0 (F := F)).Adm) (i : S512x110x640.Idx) :
    ∃ t : Fin (cfg0 a).N, ((cfg0 a).win 1).flush t = true ∧ i ∈ (((cfg0 a).win 1).blk t).view.set := by
  have h0 : (i 0).val < 512 := (i 0).isLt
  have h1 : (i 1).val < 110 := (i 1).isLt
  have h2 : (i 2).val < 640 := (i 2).isLt
  have hN : grid0.N = 16 := N_0
  let t : Fin (cfg0 a).N := ⟨(i 0).val / 32, by show (i 0).val / 32 < grid0.N; omega⟩
  refine ⟨t, flush_out a t, ?_⟩
  rw [mem_blk_out]
  obtain ⟨-, -, -, e0, e1, e2⟩ := idx_facts a t
  have et : t.val = (i 0).val / 32 := rfl
  intro k
  match k with
  | ⟨0, _⟩ => show (win0 a 1).index t (0 : Fin 3) * 32 ≤ (i 0).val ∧ (i 0).val < (win0 a 1).index t (0 : Fin 3) * 32 + 32; omega
  | ⟨1, _⟩ => show (win0 a 1).index t (1 : Fin 3) * 110 ≤ (i 1).val ∧ (i 1).val < (win0 a 1).index t (1 : Fin 3) * 110 + 110; omega
  | ⟨2, _⟩ => show (win0 a 1).index t (2 : Fin 3) * 640 ≤ (i 2).val ∧ (i 2).val < (win0 a 1).index t (2 : Fin 3) * 640 + 640; omega

variable (m : (ℓ : Loc nD τ sig) → Buf (Elt F) ℓ) (ρ : Dev nD → PrngReg)

abbrev wholeOut (c : Dev nD) : S512x110x640.Idx → Elt F .f32 :=
  Cert.Proof.Spec.scat 512 zeroF (m ((c : Thread nD τ).loc main_arg0)) (tbl m c)

theorem inBlock_eq (c : Dev nD) (t : Fin (Pipeline.pin (pcfgs (F := F)) (adm m) 0).N) (ht : t.val < 16) :
    inBlock m 0 c t = blockOf (m ((c : Thread nD τ).loc main_arg0) : S512x64x640.Idx → Elt F .f32) ⟨t.val, ht⟩ := by
  obtain ⟨e00, e01, e02, -, -, -⟩ := idx_facts (adm m 0) t
  refine funext fun (y : S32x64x640.Idx) => ?_
  have hy0 : (y 0).val < 32 := (y 0).isLt
  have hy1 : (y 1).val < 64 := (y 1).isLt
  have hy2 : (y 2).val < 640 := (y 2).isLt
  show (m ((c : Thread nD τ).loc main_arg0) : S512x64x640.Idx → Elt F .f32) ((((Pipeline.pin (pcfgs (F := F)) (adm m) 0).win 0).blk t).view.emb y)
    = (m ((c : Thread nD τ).loc main_arg0) : S512x64x640.Idx → Elt F .f32) (ix3 ⟨t.val * 32 + (y 0).val, by omega⟩ (y 1) (y 2))
  congr 1
  funext k
  apply Fin.ext
  match k with
  | ⟨0, _⟩ => show (win0 (adm m 0) 0).index t (0 : Fin 3) * 32 + 1 * (y 0).val = t.val * 32 + (y 0).val; omega
  | ⟨1, _⟩ => show (win0 (adm m 0) 0).index t (1 : Fin 3) * 64 + 1 * (y 1).val = (y 1).val; omega
  | ⟨2, _⟩ => show (win0 (adm m 0) 0).index t (2 : Fin 3) * 640 + 1 * (y 2).val = (y 2).val; omega

theorem flushed_eq (c : Dev nD) (t : Fin (Pipeline.pin (pcfgs (F := F)) (adm m) 0).N) :
    (dats m ρ 0 c).flushed 1 t = (((Pipeline.pin (pcfgs (F := F)) (adm m) 0).win 1).blk t).view.read (Elt F) (wholeOut m c) := by
  have hN : grid0.N = 16 := N_0
  have ht : t.val < 16 := hN ▸ t.isLt
  obtain ⟨-, -, -, e10, e11, e12⟩ := idx_facts (adm m 0) t
  refine funext fun (j : S32x110x640.Idx) => ?_
  obtain ⟨b, r, s, rfl⟩ : ∃ (b : Fin 32) (r : Fin 110) (s : Fin 640), j = ix3 b r s := ⟨j 0, j 1, j 2, eq_ix3 j⟩
  have hb : b.val < 32 := b.isLt
  show Cert.Proof.Spec.scat 32 zeroF (inBlock m 0 c t : S32x64x640.Idx → Elt F .f32) (tbl m c) (ix3 b r s)
    = wholeOut m c ((((Pipeline.pin (pcfgs (F := F)) (adm m) 0).win 1).blk t).view.emb (ix3 b r s))
  have hemb : (((Pipeline.pin (pcfgs (F := F)) (adm m) 0).win 1).blk t).view.emb (ix3 b r s)
      = (ix3 (⟨t.val * 32 + b.val, by omega⟩ : Fin 512) r s : S512x110x640.Idx) := by
    funext k
    apply Fin.ext
    match k with
    | ⟨0, _⟩ => show (win0 (adm m 0) 1).index t (0 : Fin 3) * 32 + 1 * b.val = t.val * 32 + b.val; omega
    | ⟨1, _⟩ => show (win0 (adm m 0) 1).index t (1 : Fin 3) * 110 + 1 * r.val = r.val; omega
    | ⟨2, _⟩ => show (win0 (adm m 0) 1).index t (2 : Fin 3) * 640 + 1 * s.val = s.val; omega
  rw [hemb, inBlock_eq m c t ht]
  exact (scat_block zeroF _ (tbl m c) ⟨t.val, ht⟩ b r s).symm

/-- Every grid point writes the restriction of one whole-array function, and the sixteen blocks cover the array. -/
theorem finalOut_eq (c : Dev nD) :
    finalOut m ρ c = Cert.Proof.Spec.scat 512 zeroF (m ((c : Thread nD τ).loc main_arg0)) (tbl m c) :=
  (dats m ρ 0 c).arrAt_eq_of_cover 1 (wholeOut m c) (fun t _ => flushed_eq m ρ c t) (cover_out (adm m 0))

end Cert.Proof.KI

end
-- ==== Proof.KILaunch.lean ====
import proofs.«424837_j50560355008971_3_alg».proof.Proof.KIDats
import Idealize.ShloMosaic.Lib.Pipeline.Regions
import Idealize.ShloMosaic.Lib.Pipeline.FrameSuffix

noncomputable section

namespace Cert.Proof.KI

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Cert.KernelIdeal.Facts]

local notation "𝕄" => MT nD τ sig Unit (Elt F) ℕ (UU nD τ) ℕ

variable (m : (ℓ : Loc nD τ sig) → Buf (Elt F) ℓ) (ρ : Dev nD → PrngReg)

abbrev 𝒱₀ : Variants := Variants.none

theorem owns_isWhole (c : Dev nD) {sp : Space} {S : Shape} {e : EltTy} (M : Memref sig .tc sp S e) (h : M.IsWhole) (q : PosShare TreeShare)
    (X : S.Idx → Elt F e) :
    (owns (c : Thread nD τ) M q X : sProp 𝕄) = iprop(∃ f : Bf (F := F) c M, ⌜M.view.read (Elt F) f = X⌝ ∗ (M.view.loc (c : Thread nD τ) ↦{q} f)) := by
  unfold owns; rw [h.set_eq_univ]

theorem fetch_in (t : Fin (Pipeline.pin (pcfgs (F := F)) (adm m) 0).N) :
    ((Pipeline.pin (pcfgs (F := F)) (adm m) 0).win 0).fetch t = true := by
  rw [Pipeline.Window.fetch_eq_fetchOf]
  show Pipeline.Window.fetchOf grid0 false cc0_transform_0 t = true
  exact (by decide : ∀ u : Fin grid0.N, Pipeline.Window.fetchOf grid0 false cc0_transform_0 u = true) t

theorem before_in (c : Dev nD) (t : Fin (Pipeline.pin (pcfgs (F := F)) (adm m) 0).N)
    (d : ((Pipeline.pin (pcfgs (F := F)) (adm m) 0).win 0).block.Idx → Elt F ((Pipeline.pin (pcfgs (F := F)) (adm m) 0).win 0).elt) :
    (dats m ρ 0 c).before 0 t d = inBlock m 0 c t := by
  unfold Dat.before; rw [if_pos (fetch_in m t)]; rfl

/-- At every grid point the body returns the table and the input block as it found them and the output block at the scatter of the input block. -/
theorem body_obligation [∀ e, Nonempty (Elt F e)] (c : Dev nD) (hr : Cert.Proof.Spec.InRange (tbl m c)) (hd : Cert.Proof.Spec.Distinct (tbl m c)) :
    BodyObligation (dats m ρ 0 c) (defs₀ (F := F)) 𝒱₀ () Set.univ := fun t => by
  rw [bigSep_W0, bigSep_W0]
  simp only [owns_isWhole c _ (stage_whole0 0 _), owns_isWhole c _ (stage_whole0 1 _)]
  rw [show (dats m ρ 0 c).Φ t.castSucc = Φc m c from rfl, show (dats m ρ 0 c).Φ t.succ = Φc m c from rfl]
  unfold Φc Dat.owesAt Pipeline.owesWithin; rw [scopedRest0_eq]
  rw [show (dats m ρ 0 c).owed t.castSucc = 0 from rfl, show (dats m ρ 0 c).owed t.succ = 0 from rfl]
  iintro ⟨⟨H1, Hsems, -⟩, ⟨%W, %hW, HO⟩, ⟨%d0, %f2, %hf2, H2⟩, ⟨%d1, %f3, %hf3, H3⟩⟩
  replace hf2 := hf2.trans (before_in m ρ c t d0)
  iapply (kernelRun c (grid0.coords t) (stage0_0 ((Pipeline.pin (pcfgs (F := F)) (adm m) 0).slots t 0)) (stage_whole0 0 _)
    (stage0_1 ((Pipeline.pin (pcfgs (F := F)) (adm m) 0).slots t 1)) (stage_whole0 1 _) (tbl m c) hr hd f2 f3 W)
  isplitl [H1]; · iexact H1
  isplitl [H2]; · iexact H2
  isplitl [H3]; · iexact H3
  isplitl [Hsems]; · iexact Hsems
  isplitl [HO]; · iexact HO
  iintro ⟨H1, H2, ⟨%g3, %hg3, H3⟩, Hsems, ⟨%W', HO⟩⟩
  isplitl [H1 Hsems]
  · isplitl [H1]; · iexact H1
    isplitl [Hsems]; · iexact Hsems
    iempintro
  isplitl [HO]
  · iexists W'; isplitr; · ipureintro; exact fun _ _ => Or.inl trivial
    iexact HO
  isplitl [H2]
  · iexists f2; isplitr; · ipureintro; exact hf2
    iexact H2
  · iexists g3; isplitr; · ipureintro; rw [hg3, hf2]; rfl
    iexact H3

abbrev EP : Emb (UR sig nD τ) (MT nD τ sig Unit (Elt F) ℕ (UU nD τ) ℕ) := embL

abbrev L : GSem nD τ sig → Finset Unit := fun _ => ∅
abbrev lv : GSem nD τ sig → Unit → ℕ := fun _ _ => 0

theorem ownSemFacts : Pipeline.OwnSemFacts spec0 osem := by decide

def u₀ : UU nD τ :=
  (initOf (Pipeline.cells (Pipeline.pin (pcfgs (F := F)) (adm m)) (cellOf_inj (adm m)))
    (Pipeline.launchToks (Pipeline.pin (pcfgs (F := F)) (adm m)) (cellOf_inj (adm m))), 1)

abbrev V₀ (c : Dev nD) : Valuation τ sig (Elt F) := fun b => m ((c : Dev nD), b)

abbrev arrN (c : Dev nD) (w : Fin 2) : Buf (Elt F) ((spec0 w).arr.view.loc (c : Thread nD τ)) :=
  (dats m ρ 0 c).arrAt w (Pipeline.pin (pcfgs (F := F)) (adm m) 0).N

abbrev V₁ (c : Dev nD) : Valuation τ sig (Elt F) := Pipeline.withArrays spec0 c (V₀ m c) (arrN m ρ c)

abbrev R (c : Dev nD) : sProp 𝕄 := iprop(∃ W, owes (c : Thread nD τ) (0 : CellTallies nD τ sig Unit) W)

abbrev Rt (c : Dev nD) : sProp 𝕄 := iprop(pt c (Memref.whole main_arg1) (tbl m c) ∗ R c)

abbrev tailS : Finset (DevRef τ sig) := Pipeline.tailRefs sig pre0 spec0

theorem prefHeld0 (c : Dev nD) (q : Fin pre0.K → PosShare TreeShare) (V : pre0.Contents (Elt F)) :
    (Pipeline.prefHeld (Ix := Unit) (Name := ℕ) (U := UU nD τ) (Lvl := ℕ) pre0 c q V : sProp 𝕄)
      = ((c : Thread nD τ).loc main_arg1 ↦{q 0} V 0) :=
  bigSep_univ_eq_bigSepL [(0 : Fin 1)] (by decide) (by decide) _

theorem held_tailS (c : Dev nD) (Wv : Valuation τ sig (Elt F)) :
    (StableHlo.held (c : Thread nD τ) tailS Wv : sProp 𝕄)
      = iprop(((((c : Thread nD τ).loc main_arg0) ↦{fullShare} Wv (Proc.devRef .tc main_arg0))
            ∗ (((c : Thread nD τ).loc main_v0) ↦{fullShare} Wv (Proc.devRef .tc main_v0)))
          ∗ (((c : Thread nD τ).loc main_v1) ↦{fullShare} Wv (Proc.devRef .tc main_v1))) := by
  rw [Pipeline.held_tailRefs pre0 spec0 (winFacts0).arr_inj c Wv, unscopedRestP0_eq]
  unfold Pipeline.arrPts; rw [bigSep_W0]

theorem arrays_two (c : Dev nD) (Fa : (w : Fin 2) → Buf (Elt F) ((spec0 w).arr.view.loc (c : Thread nD τ))) :
    ((dats m ρ 0 c).arrays Fa : sProp 𝕄)
      = iprop((((c : Thread nD τ).loc main_arg0) ↦{fullShare} Fa 0) ∗ (((c : Thread nD τ).loc main_v0) ↦{fullShare} Fa 1)) := by
  rw [Pipeline.arrays_eq (Pipeline.pin (pcfgs (F := F)) (adm m)) (dats m ρ) 0 c (launch0 (F := F)).arr_whole
    ((dats m ρ 0 c).share_full fun _ => rfl) Fa, bigSep_W0]

theorem V₁_arg0 (c : Dev nD) : V₁ m ρ c (Proc.devRef .tc main_arg0) = arrN m ρ c 0 :=
  Pipeline.withArrays_arr spec0 (winFacts0).arr_inj c (V₀ m c) (arrN m ρ c) 0
theorem V₁_v0 (c : Dev nD) : V₁ m ρ c (Proc.devRef .tc main_v0) = arrN m ρ c 1 :=
  Pipeline.withArrays_arr spec0 (winFacts0).arr_inj c (V₀ m c) (arrN m ρ c) 1
theorem V₁_v1 (c : Dev nD) : V₁ m ρ c (Proc.devRef .tc main_v1) = m ((c : Thread nD τ).loc main_v1) :=
  Pipeline.withArrays_of_ne spec0 c (V₀ m c) (arrN m ρ c) main_v1 (by decide)

def seg1 : Pipeline.HostSeg (Name := ℕ) (U := UU nD τ) (pcfgs (F := F)) defs₀ 𝒱₀ L lv :=
  Pipeline.HostSeg.ofOps _ _ _ _ _ tailS hostOps1
    (fun op h => Pipeline.sub_tailRefs pre0 spec0 op ((List.forall_iff_forall_mem.mp hostOps1_sub) op h) (by
      intro k; obtain rfl : k = 0 := Subsingleton.elim _ _
      simp only [List.mem_cons, List.mem_nil_iff, or_false] at h; subst h
      rw [StableHlo.reshape_bufs]; decide))
    (by intro _ h; (repeat (cases h with | head => rfl | tail _ h => ?_)); exact nomatch h) (V₁ m ρ) (Rt m)

set_option backward.isDefEq.respectTransparency.types false in
def reg0 [∀ e, Nonempty (Elt F e)] (hr : ∀ c : Dev nD, Cert.Proof.Spec.InRange (tbl m c)) (hd : ∀ c : Dev nD, Cert.Proof.Spec.Distinct (tbl m c)) :
    Pipeline.RegionSeg (pcfgs (F := F)) (adm m) (dats m ρ) () defs₀ 𝒱₀ L lv 0 where
  win := (launch0 (F := F)).win.to₀
  block_pos := (launch0 (F := F)).block_pos
  stage_whole := (launch0 (F := F)).stage_whole
  K := Fin 64
  osem := osem
  ho := ownSemFacts
  hbody c := (body_obligation m ρ c (hr c) (hd c)).loose
  hwaits := Pipeline.hwaits_of_owed_zero _ _ _ _ L lv 0 fun _ _ => rfl
  pre c := iprop(unscopedBufs c (fun b => m ((c : Thread nD τ).loc b)) ∗ R c)
  post c := iprop(StableHlo.held (c : Thread nD τ) tailS (V₁ m ρ c) ∗ Rt m c)
  X c := sems0 c
  Y c := pt c (Memref.whole main_arg1) (tbl m c)
  Z c := ((c : Thread nD τ).loc main_v1) ↦{fullShare} m ((c : Thread nD τ).loc main_v1)
  hentry c := by
    obtain rfl : c = 0 := Subsingleton.elim _ _
    have hsplit := Pipeline.arrays_of_unscopedBufs (pcfgs (F := F)) (adm m) (dats m ρ) (launch0 (F := F)).win (launch0 (F := F)).arr_whole 0
      ((dats m ρ 0 0).share_full fun _ => rfl) (fun b => m (((0 : Dev nD) : Thread nD τ).loc b)) fun _ => rfl
    rw [Pipeline.unscopedRest_split preFacts0, prefHeld0, unscopedRestP0_eq] at hsplit
    iintro ⟨⟨Hub, HO⟩, Hos, -⟩
    ihave H := hsplit $$ Hub
    icases H with ⟨Ha, Hp, H1⟩
    imodintro
    isplitl [Ha]; · iexact Ha
    isplitl [Hp]; · rw [prefHeld0]; iexact Hp
    isplitl [HO]
    · unfold Pipeline.Dat.owesAt Pipeline.owesWithin
      icases HO with ⟨%W, HO⟩; iexists W; isplitr; · ipureintro; exact fun _ _ => Or.inl trivial
      iexact HO
    isplitl [Hos]; · iexact Hos
    iexact H1
  hin c := by
    obtain rfl : c = 0 := Subsingleton.elim _ _
    rw [show (dats m ρ 0 0).Φ 0 = Φc m 0 from rfl, prefHeld0]; unfold Φc
    iintro ⟨Hos, Hp, Hr⟩
    isplitl [Hp]; · iexact Hp
    isplitl [Hos] <;> iassumption
  hout c := by
    rw [show (dats m ρ 0 c).Φ (Fin.last (Pipeline.pin (pcfgs (F := F)) (adm m) 0).N) = Φc m c from rfl]; unfold Φc
    iintro ⟨Hp, Hos, Hr⟩
    isplitl [Hp]; · iexact Hp
    isplitl [Hos] <;> iassumption
  hexit c := by
    rw [held_tailS, V₁_arg0, V₁_v0, V₁_v1, arrays_two]
    iintro ⟨⟨Ha0, Ha1⟩, HO, HY, HZ⟩
    imodintro
    isplitl [Ha0 Ha1 HZ]
    · isplitr [HZ]
      · isplitl [Ha0]; · iexact Ha0
        iexact Ha1
      · iexact HZ
    isplitl [HY]; · iexact HY
    unfold Pipeline.Dat.owesAt Pipeline.owesWithin
    icases HO with ⟨%W, -, HO⟩; iexists W; iexact HO

abbrev segs [∀ e, Nonempty (Elt F e)] (hr : ∀ c : Dev nD, Cert.Proof.Spec.InRange (tbl m c)) (hd : ∀ c : Dev nD, Cert.Proof.Spec.Distinct (tbl m c)) :
    List (Pipeline.Seg (pcfgs (F := F)) (adm m) (dats m ρ) () defs₀ 𝒱₀ L lv) := [.region (reg0 m ρ hr hd), .host (seg1 m ρ)]

abbrev Tₙ (c : Dev nD) : sProp 𝕄 :=
  iprop(StableHlo.held (c : Thread nD τ) tailS (StableHlo.after hostOps1 (V₁ m ρ c)) ∗ pt c (Memref.whole main_arg1) (tbl m c))

theorem after_v1 (c : Dev nD) :
    StableHlo.after hostOps1 (V₁ m ρ c) (Proc.devRef .tc main_v1) = shapeCast _ (finalOut m ρ c) shapeCasts_S512x110x640_S512x10x11x640 := by
  simp only [StableHlo.after_cons, StableHlo.after_nil]
  rw [StableHlo.reshape_result, V₁_v0]
  rfl

theorem after_arg0 (c : Dev nD) :
    StableHlo.after hostOps1 (V₁ m ρ c) (Proc.devRef .tc main_arg0) = m ((c : Thread nD τ).loc main_arg0) := by
  rw [StableHlo.after_of_forall_not_mem (b := Proc.devRef .tc main_arg0) hostOps1 (V₁ m ρ c) (by
    intro op hop
    simp only [List.mem_cons, List.mem_nil_iff, or_false] at hop; subst hop
    simp only [StableHlo.reshape_writes, Finset.mem_singleton]
    exact StableHlo.devRef_ne_of_ne (by decide)), V₁_arg0]
  exact (dats (F := F) m ρ 0 c).arrAt_in 0 rfl _

set_option backward.isDefEq.respectTransparency.types false in
/-- One region of sixteen grid points followed by the regrouping of the row axis: every execution ends with the regrouped scatter and the arguments unchanged. -/
theorem run_main [∀ e, Nonempty (Elt F e)] (m : (ℓ : Loc nD τ sig) → Buf (Elt F) ℓ) (ρ : Dev nD → PrngReg)
    (hr : ∀ c : Dev nD, Cert.Proof.Spec.InRange (tbl m c)) (hd : ∀ c : Dev nD, Cert.Proof.Spec.Distinct (tbl m c)) :
    θ_run defs (onTc (τ := τ) (main (F := F))) ⟨m, fun _ => 0, ρ⟩ (fun r => ∀ c : Dev nD,
      r.2.mem ((c : Thread nD τ).loc main_v1) = shapeCast _ (finalOut m ρ c) shapeCasts_S512x110x640_S512x10x11x640
      ∧ r.2.mem ((c : Thread nD τ).loc main_arg0) = m ((c : Thread nD τ).loc main_arg0)
      ∧ r.2.mem ((c : Thread nD τ).loc main_arg1) = m ((c : Thread nD τ).loc main_arg1)) :=
  Pipeline.θ_run_regions_kit (pcfgs (F := F)) (adm m) (dats m ρ) () (cellOf_inj (adm m)) EP defs₀ 𝒱₀ L lv m ρ main (segs m ρ hr hd)
    (fun c Q => by rw [main_segs (adm m) (dats m ρ) () 𝒱₀ L lv (seg1 m ρ) (reg0 m ρ hr hd) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(unscopedBufs c (fun b => m ((c : Thread nD τ).loc b)) ∗ R c)) (Tₙ := Tₙ m ρ)
    (hch := ⟨fun _ => .rfl, fun _ => .rfl, fun c => by
      change iprop(StableHlo.held (c : Thread nD τ) tailS (StableHlo.after hostOps1 (V₁ m ρ c)) ∗ Rt m c) ⊢ _
      iintro ⟨Hh, Hp, HO⟩
      isplitr [HO]
      · isplitl [Hh] <;> iassumption
      · iexact HO⟩)
    (hinit := by
      refine Pipeline.initEach L lv fun c => ?_
      iintro ⟨⟨Hh, -, HO, -, -, -⟩, -⟩
      imodintro
      isplitl [Hh]; · iexact Hh
      iexists ∅; iexact HO)
    (QY := fun c s => s.mem ((c : Thread nD τ).loc main_v1) = shapeCast _ (finalOut m ρ c) shapeCasts_S512x110x640_S512x10x11x640
      ∧ s.mem ((c : Thread nD τ).loc main_arg0) = m ((c : Thread nD τ).loc main_arg0)
      ∧ s.mem ((c : Thread nD τ).loc main_arg1) = m ((c : Thread nD τ).loc main_arg1))
    (hfin := fun c s' => by
      dsimp only [Tₙ]
      rw [held_tailS]
      iintro ⟨⟨⟨⟨H0, Hv0⟩, Hv1⟩, H1⟩, HSI⟩
      icombine HSI H0 gives %h0
      icombine HSI Hv1 gives %h1
      icombine HSI H1 gives %h2
      imodintro
      isplitr
      · ipureintro
        exact ⟨(Buf.eq_of_forall_mem_univ h1).trans (after_v1 m ρ c), (Buf.eq_of_forall_mem_univ h0).trans (after_arg0 m ρ c),
          Buf.eq_of_forall_mem_univ h2⟩
      iexact HSI)
    (hQ := fun _ h => h)

end Cert.Proof.KI

end
-- ==== Proof.lean ====
/-
  Sixty-four channel rows of an array f32[512, 64, 640] are placed into a grid of one hundred and ten rows, at the rows a table i32[64]
  names, the rest of the grid zero; the grid is then regrouped as f32[512, 10, 11, 640]. Under the precondition the table is in range
  and injective, so the sixty-four destination rows are pairwise disjoint, and kernel and reference both end with `outOf`: the
  regrouped `Spec.scat` of the input under the table.
-/
import proofs.«424837_j50560355008971_3_alg».proof.Defs
import proofs.«424837_j50560355008971_3_alg».proof.Proof.Gen.Kernel
import proofs.«424837_j50560355008971_3_alg».proof.Proof.Gen.KernelIdeal
import proofs.«424837_j50560355008971_3_alg».proof.Proof.Gen.ReferenceIdeal
import proofs.«424837_j50560355008971_3_alg».proof.Proof.Gen.Pre_finite_inputs
import proofs.«424837_j50560355008971_3_alg».proof.Proof.PreFacts
import proofs.«424837_j50560355008971_3_alg».proof.Proof.RefValue
import proofs.«424837_j50560355008971_3_alg».proof.Proof.KIValue
import proofs.«424837_j50560355008971_3_alg».proof.Proof.KILaunch

noncomputable section

namespace Cert.Proof.Claims

open Idealize.ShloMosaic Idealize.ShloMosaic.TcCoe Idealize.SL.Sem

/-- The array both idealized programs end with. -/
abbrev outOf (x : Cert.KernelIdeal.S512x64x640.Idx → Elt Ideal .f32) (idx : Cert.KernelIdeal.S64.Idx → BitVec 32) :
    Cert.KernelIdeal.S512x10x11x640.Idx → Elt Ideal .f32 :=
  shapeCast _ (Cert.Proof.Spec.scat 512 (Cert.Proof.KI.zeroF (F := Ideal)) x idx)
    Cert.KernelIdeal.Facts₀.shapeCasts_S512x110x640_S512x10x11x640

/-- The idealization rewrote no operation: under the one label both programs have the same body, and there is no other label. -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun x => ?_)
  match l, x with
  | ⟨0, _⟩, (t, s) => rfl
  | ⟨_ + 1, h⟩, _ => exact absurd h (Nat.not_lt.2 (Nat.le_add_left _ _))

theorem defs_eq {F : FTy → Type} [FloatOps F] : Cert.Kernel.defs (F := F) = Cert.KernelIdeal.defs (F := F) :=
  congrArg (Pipeline.defs Cert.KernelIdeal.pcfgs) defs₀_eq

/-- So the run proved of that text, whatever the floats are read as, gives the printed kernel's frame as well. -/
theorem frame_k : Cert.frame_Kernel := fun m g hpre => by
  have run := Cert.Proof.KI.run_main (F := Bits) m g
    (fun c => Cert.Proof.PreFacts.inRange_of_pre _ _ (hpre c))
    (fun c => Cert.Proof.PreFacts.distinct_of_pre _ _ (hpre c))
  rw [← defs_eq] at run
  refine (θ_run _ _ _).mono ?_ run
  intro r h c
  exact ⟨(h c).2.1, (h c).2.2⟩

theorem frame_ki : Cert.frame_KernelIdeal := fun m g hpre =>
  (θ_run _ _ _).mono (fun _ h c => ⟨(h c).2.1, (h c).2.2⟩)
    (Cert.Proof.KI.run_main (F := Ideal) m g
      (fun c => Cert.Proof.PreFacts.inRange_of_pre _ _ (hpre c))
      (fun c => Cert.Proof.PreFacts.distinct_of_pre _ _ (hpre c)))

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both idealized programs end with `outOf` of the input and the table. -/
theorem algebraic : Cert.algebraic_KernelIdeal_ReferenceIdeal := by
  intro m ρ m' ρ' hpre hagree
  have hr : ∀ c : Dev Cert.KernelIdeal.nD, Cert.Proof.Spec.InRange (Cert.Proof.KI.tbl m c) :=
    fun c => Cert.Proof.PreFacts.inRange_of_pre _ _ (hpre c)
  have hd : ∀ c : Dev Cert.KernelIdeal.nD, Cert.Proof.Spec.Distinct (Cert.Proof.KI.tbl m c) :=
    fun c => Cert.Proof.PreFacts.distinct_of_pre _ _ (hpre c)
  refine ⟨fun c => outOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run _ _ _).mono (fun _ h c => ⟨?_, (h c).2.1, (h c).2.2⟩) (Cert.Proof.KI.run_main (F := Ideal) m ρ hr hd)
    rw [(h c).1, Cert.Proof.KI.finalOut_eq]
    rfl
  · refine (θ_run Cert.ReferenceIdeal.defs _ _).mono (fun _ h c => ⟨?_, (h c).2.1, (h c).2.2⟩)
      (Cert.ReferenceIdeal.Value.run (F := Ideal) m' ρ')
    rw [(h c).1, (hagree c).1, (hagree c).2, Cert.Proof.RefValue.scatter_eq _ _ (hr c) (hd c)]

end Cert.Proof.Claims

namespace Cert.Proof

theorem claim : Cert.Claim := ⟨Cert.Kernel.Gen.facts, Cert.KernelIdeal.Gen.facts, Cert.ReferenceIdeal.Gen.facts, Cert.Pre_finite_inputs.Gen.facts, by
  exact ⟨Claims.frame_k, Claims.frame_ki, Claims.frame_ri, Claims.preserves, Claims.algebraic⟩⟩

end Cert.Proof

end
